-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S2x393216 : Shape := ⟨2, ![2, 393216]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S_ : Shape := ⟨0, ![]⟩
abbrev S1x393216 : Shape := ⟨2, ![1, 393216]⟩
abbrev S393216 : Shape := ⟨1, ![393216]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  slices_S2x393216_S1x393216_0_0 : S2x393216.Slices ![0, 0] S1x393216
  shapeCasts_S1x393216_S393216 : S1x393216.ShapeCasts S393216
  bcast_S_S393216 : S_.BroadcastsInDim S393216 (![] : Fin 0 → Fin S393216.rank)
  reducesTo_S393216_S_d0 : S393216.ReducesTo [0] S_

variable [Facts]

def fn_part3 {F : FTy → Type} [FloatOps F] (main_arg1 : IVec S2x393216 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x393216 32 := (extractStridedSlice S1x393216 ![0, 0] · slices_S2x393216_S1x393216_0_0) main_arg1
  let main_v55 : IVec S393216 32 := shapeCast S393216 main_v54 shapeCasts_S1x393216_S393216
  let main_c_20 : IVec S_ 32 := constantI S_ 32 0#32
  let main_v56 : IVec S393216 32 := broadcastInDim S393216 ![] bcast_S_S393216 main_c_20
  let main_v57 : IVec S393216 1 := cmpi .sge main_v55 main_v56
  let main_v58 : IVec S1x393216 32 := (extractStridedSlice S1x393216 ![0, 0] · slices_S2x393216_S1x393216_0_0) main_arg1
  let main_v59 : IVec S393216 32 := shapeCast S393216 main_v58 shapeCasts_S1x393216_S393216
  let main_c_21 : IVec S_ 32 := constantI S_ 32 12288#32
  let main_v60 : IVec S393216 32 := broadcastInDim S393216 ![] bcast_S_S393216 main_c_21
  let main_v61 : IVec S393216 1 := cmpi .slt main_v59 main_v60
  let main_v62 : IVec S393216 1 := andi main_v57 main_v61
  let main_c_22 : IVec S_ 1 := constantI S_ 1 1#1
  let main_v63 : IVec S_ 1 := (fun x v => Host.reduce IntOp.andi x v reducesTo_S393216_S_d0 h_S_) main_v62 main_c_22
  let main_v64 : IVec S_ 1 := andi main_v53 main_v63
  main_v64

def fn_part2 {F : FTy → Type} [FloatOps F] (main_arg1 : IVec S2x393216 32) (main_arg8 : FVec F S64x512 .f32) (main_arg9 : FVec F S512 .f32) (main_arg10 : FVec F S64x64 .f32) (main_arg11 : FVec F S64 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x393216 32) (main_arg5 : FVec F S64 .f32) (main_arg6 : FVec F S64x64 .f32) (main_arg7 : FVec F S64 .f32) (main_arg8 : FVec F S64x512 .f32) (main_arg9 : FVec F S512 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S12288x512 .f32) (main_arg1 : IVec S2x393216 32) (main_arg2 : FVec F S512x64 .f32) (main_arg3 : FVec F S64 .f32) (main_arg4 : FVec F S64x64 .f32) (main_arg5 : FVec F S64 .f32) (main_arg6 : FVec F S64x64 .f32) (main_arg7 : FVec F S64 .f32) (main_arg8 : FVec F S64x512 .f32) (main_arg9 : FVec F S512 .f32) (main_arg10 : FVec F S64x64 .f32) (main_arg11 : FVec F S64 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_v13 main_v16
-- ==== Kernel.lean ====
abbrev S12288x512 : Shape := ⟨2, ![12288, 512]⟩
abbrev S2x393216 : Shape := ⟨2, ![2, 393216]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S1x393216 : Shape := ⟨2, ![1, 393216]⟩
abbrev S393216 : Shape := ⟨1, ![393216]⟩
abbrev S12288x64 : Shape := ⟨2, ![12288, 64]⟩
abbrev S4096x512 : Shape := ⟨2, ![4096, 512]⟩
abbrev S4096x64 : Shape := ⟨2, ![4096, 64]⟩
abbrev S_ : Shape := ⟨0, ![]⟩
abbrev S393216x1 : Shape := ⟨2, ![393216, 1]⟩
abbrev S1 : Shape := ⟨1, ![1]⟩
abbrev S1x1 : Shape := ⟨2, ![1, 1]⟩
abbrev S393216x64 : Shape := ⟨2, ![393216, 64]⟩
abbrev S1x64 : Shape := ⟨2, ![1, 64]⟩
abbrev S1024x64 : Shape := ⟨2, ![1024, 64]⟩
abbrev S1x512 : Shape := ⟨2, ![1, 512]⟩
abbrev S12288x12288 : Shape := ⟨2, ![12288, 12288]⟩
abbrev S2048x64 : Shape := ⟨2, ![2048, 64]⟩
abbrev S2048x1024 : Shape := ⟨2, ![2048, 1024]⟩

abbrev nBuf : Space → Nat
  | .hbm => 164
  | .vmem => 41
  | .smem => 0
  | _ => 0

abbrev hbmTy0_0 (i : Nat) : BufTy := match i % 128 with
  | 0 => ⟨S12288x512, .f32⟩
  | 1 => ⟨S2x393216, .i32⟩
  | 2 => ⟨S512x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x512, .f32⟩
  | 9 => ⟨S512, .f32⟩
  | 10 => ⟨S64x64, .f32⟩
  | 11 => ⟨S64, .f32⟩
  | 12 => ⟨S1x393216, .i32⟩
  | 13 => ⟨S393216, .i32⟩
  | 14 => ⟨S1x393216, .i32⟩
  | 15 => ⟨S393216, .i32⟩
  | 16 => ⟨S12288x64, .f32⟩
  | 17 => ⟨S_, .i32⟩
  | 18 => ⟨S393216, .i32⟩
  | 19 => ⟨S393216, .i1⟩
  | 20 => ⟨S_, .i32⟩
  | 21 => ⟨S393216, .i32⟩
  | 22 => ⟨S393216, .i32⟩
  | 23 => ⟨S393216, .i32⟩
  | 24 => ⟨S393216x1, .i32⟩
  | 25 => ⟨S1, .i32⟩
  | 26 => ⟨S_, .i32⟩
  | 27 => ⟨S393216x1, .i32⟩
  | 28 => ⟨S393216x1, .i1⟩
  | 29 => ⟨S1x1, .i32⟩
  | 30 => ⟨S393216x1, .i32⟩
  | 31 => ⟨S393216x1, .i1⟩
  | 32 => ⟨S393216x1, .i1⟩
  | 33 => ⟨S_, .i1⟩
  | 34 => ⟨S393216, .i1⟩
  | 35 => ⟨S393216x64, .f32⟩
  | 36 => ⟨S393216x64, .i1⟩
  | 37 => ⟨S_, .f32⟩
  | 38 => ⟨S393216x64, .f32⟩
  | 39 => ⟨S393216x64, .f32⟩
  | 40 => ⟨S_, .f32⟩
  | 41 => ⟨S12288x64, .f32⟩
  | 42 => ⟨S393216x1, .i32⟩
  | 43 => ⟨S12288x64, .f32⟩
  | 44 => ⟨S1x64, .f32⟩
  | 45 => ⟨S12288x64, .f32⟩
  | 46 => ⟨S_, .i32⟩
  | 47 => ⟨S393216, .i32⟩
  | 48 => ⟨S393216, .i1⟩
  | 49 => ⟨S_, .i32⟩
  | 50 => ⟨S393216, .i32⟩
  | 51 => ⟨S393216, .i32⟩
  | 52 => ⟨S393216, .i32⟩
  | 53 => ⟨S393216x1, .i32⟩
  | 54 => ⟨S1, .i32⟩
  | 55 => ⟨S_, .i32⟩
  | 56 => ⟨S393216x1, .i32⟩
  | 57 => ⟨S393216x1, .i1⟩
  | 58 => ⟨S1x1, .i32⟩
  | 59 => ⟨S393216x1, .i32⟩
  | 60 => ⟨S393216x1, .i1⟩
  | 61 => ⟨S393216x1, .i1⟩
  | 62 => ⟨S_, .i1⟩
  | 63 => ⟨S393216, .i1⟩
  | 64 => ⟨S393216x64, .f32⟩
  | 65 => ⟨S393216x64, .i1⟩
  | 66 => ⟨S_, .f32⟩
  | 67 => ⟨S393216x64, .f32⟩
  | 68 => ⟨S393216x64, .f32⟩
  | 69 => ⟨S_, .f32⟩
  | 70 => ⟨S12288x64, .f32⟩
  | 71 => ⟨S393216x1, .i32⟩
  | 72 => ⟨S12288x64, .f32⟩
  | 73 => ⟨S1x64, .f32⟩
  | 74 => ⟨S12288x64, .f32⟩
  | 75 => ⟨S_, .i32⟩
  | 76 => ⟨S393216, .i32⟩
  | 77 => ⟨S393216, .i1⟩
  | 78 => ⟨S_, .i32⟩
  | 79 => ⟨S393216, .i32⟩
  | 80 => ⟨S393216, .i32⟩
  | 81 => ⟨S393216, .i32⟩
  | 82 => ⟨S393216x1, .i32⟩
  | 83 => ⟨S1, .i32⟩
  | 84 => ⟨S_, .i32⟩
  | 85 => ⟨S393216x1, .i32⟩
  | 86 => ⟨S393216x1, .i1⟩
  | 87 => ⟨S1x1, .i32⟩
  | 88 => ⟨S393216x1, .i32⟩
  | 89 => ⟨S393216x1, .i1⟩
  | 90 => ⟨S393216x1, .i1⟩
  | 91 => ⟨S_, .i1⟩
  | 92 => ⟨S393216, .i1⟩
  | 93 => ⟨S393216x64, .f32⟩
  | 94 => ⟨S393216x64, .i1⟩
  | 95 => ⟨S_, .f32⟩
  | 96 => ⟨S393216x64, .f32⟩
  | 97 => ⟨S393216x64, .f32⟩
  | 98 => ⟨S_, .f32⟩
  | 99 => ⟨S12288x64, .f32⟩
  | 100 => ⟨S393216x1, .i32⟩
  | 101 => ⟨S12288x64, .f32⟩
  | 102 => ⟨S1x64, .f32⟩
  | 103 => ⟨S12288x64, .f32⟩
  | 104 => ⟨S_, .i32⟩
  | 105 => ⟨S393216, .i32⟩
  | 106 => ⟨S393216, .i1⟩
  | 107 => ⟨S_, .i32⟩
  | 108 => ⟨S393216, .i32⟩
  | 109 => ⟨S393216, .i32⟩
  | 110 => ⟨S393216, .i32⟩
  | 111 => ⟨S393216x1, .i32⟩
  | 112 => ⟨S1, .i32⟩
  | 113 => ⟨S_, .i32⟩
  | 114 => ⟨S393216x1, .i32⟩
  | 115 => ⟨S393216x1, .i1⟩
  | 116 => ⟨S1x1, .i32⟩
  | 117 => ⟨S393216x1, .i32⟩
  | 118 => ⟨S393216x1, .i1⟩
  | 119 => ⟨S393216x1, .i1⟩
  | 120 => ⟨S_, .i1⟩
  | 121 => ⟨S393216, .i1⟩
  | 122 => ⟨S393216x64, .f32⟩
  | 123 => ⟨S393216x64, .i1⟩
  | 124 => ⟨S_, .f32⟩
  | 125 => ⟨S393216x64, .f32⟩
  | 126 => ⟨S393216x64, .f32⟩
  | 127 => ⟨S_, .f32⟩
  | _ => ⟨S12288x512, .f32⟩

abbrev hbmTy0_1 (i : Nat) : BufTy := match i % 128 with
  | 0 => ⟨S12288x64, .f32⟩
  | 1 => ⟨S393216x1, .i32⟩
  | 2 => ⟨S12288x64, .f32⟩
  | 3 => ⟨S1x512, .f32⟩
  | 4 => ⟨S12288x512, .f32⟩
  | 5 => ⟨S1x64, .f32⟩
  | 6 => ⟨S12288x64, .f32⟩
  | 7 => ⟨S_, .i32⟩
  | 8 => ⟨S393216, .i32⟩
  | 9 => ⟨S393216, .i1⟩
  | 10 => ⟨S_, .i32⟩
  | 11 => ⟨S393216, .i32⟩
  | 12 => ⟨S393216, .i32⟩
  | 13 => ⟨S393216, .i32⟩
  | 14 => ⟨S393216x1, .i32⟩
  | 15 => ⟨S1, .i32⟩
  | 16 => ⟨S_, .i32⟩
  | 17 => ⟨S393216x1, .i32⟩
  | 18 => ⟨S393216x1, .i1⟩
  | 19 => ⟨S1x1, .i32⟩
  | 20 => ⟨S393216x1, .i32⟩
  | 21 => ⟨S393216x1, .i1⟩
  | 22 => ⟨S393216x1, .i1⟩
  | 23 => ⟨S_, .i1⟩
  | 24 => ⟨S393216, .i1⟩
  | 25 => ⟨S393216x64, .f32⟩
  | 26 => ⟨S393216x64, .i1⟩
  | 27 => ⟨S_, .f32⟩
  | 28 => ⟨S393216x64, .f32⟩
  | 29 => ⟨S393216x64, .f32⟩
  | 30 => ⟨S_, .f32⟩
  | 31 => ⟨S12288x64, .f32⟩
  | 32 => ⟨S393216x1, .i32⟩
  | 33 => ⟨S12288x64, .f32⟩
  | 34 => ⟨S1x64, .f32⟩
  | 35 => ⟨S12288x12288, .f32⟩
  | _ => ⟨S12288x512, .f32⟩

abbrev hbmTy (i : Nat) : BufTy := match i / 128 with
  | 0 => hbmTy0_0 i
  | 1 => hbmTy0_1 i
  | _ => ⟨S12288x512, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S4096x64, .f32⟩
  | .local _ .vmem, ⟨4, _⟩ => ⟨S4096x64, .f32⟩
  | .local _ .vmem, ⟨5, _⟩ => ⟨S1024x64, .f32⟩
  | .local _ .vmem, ⟨6, _⟩ => ⟨S1024x64, .f32⟩
  | .local _ .vmem, ⟨7, _⟩ => ⟨S1x64, .f32⟩
  | .local _ .vmem, ⟨8, _⟩ => ⟨S64x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1x64, .f32⟩
  | .local _ .vmem, ⟨14, _⟩ => ⟨S64x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1x64, .f32⟩
  | .local _ .vmem, ⟨20, _⟩ => ⟨S1024x64, .f32⟩
  | .local _ .vmem, ⟨21, _⟩ => ⟨S1024x64, .f32⟩
  | .local _ .vmem, ⟨22, _⟩ => ⟨S4096x64, .f32⟩
  | .local _ .vmem, ⟨23, _⟩ => ⟨S4096x64, .f32⟩
  | .local _ .vmem, ⟨24, _⟩ => ⟨S64x512, .f32⟩
  | .local _ .vmem, ⟨25, _⟩ => ⟨S1x512, .f32⟩
  | .local _ .vmem, ⟨26, _⟩ => ⟨S4096x512, .f32⟩
  | .local _ .vmem, ⟨27, _⟩ => ⟨S4096x512, .f32⟩
  | .local _ .vmem, ⟨28, _⟩ => ⟨S1024x64, .f32⟩
  | .local _ .vmem, ⟨29, _⟩ => ⟨S1024x64, .f32⟩
  | .local _ .vmem, ⟨30, _⟩ => ⟨S1x64, .f32⟩
  | .local _ .vmem, ⟨31, _⟩ => ⟨S64x64, .f32⟩
  | .local _ .vmem, ⟨32, _⟩ => ⟨S1024x64, .f32⟩
  | .local _ .vmem, ⟨33, _⟩ => ⟨S1024x64, .f32⟩
  | .local _ .vmem, ⟨34, _⟩ => ⟨S2048x64, .f32⟩
  | .local _ .vmem, ⟨35, _⟩ => ⟨S2048x64, .f32⟩
  | .local _ .vmem, ⟨36, _⟩ => ⟨S1024x64, .f32⟩
  | .local _ .vmem, ⟨37, _⟩ => ⟨S1024x64, .f32⟩
  | .local _ .vmem, ⟨38, _⟩ => ⟨S1x64, .f32⟩
  | .local _ .vmem, ⟨39, _⟩ => ⟨S2048x1024, .f32⟩
  | .local _ .vmem, ⟨40, _⟩ => ⟨S2048x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_cst : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v17 : Ref sig .tc := ⟨.hbm, 97, rfl⟩
abbrev main_cst_1 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v23 : Ref sig .tc := ⟨.hbm, 126, rfl⟩
abbrev main_cst_2 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_c_1 : Ref sig .tc := ⟨.hbm, 143, rfl⟩
abbrev main_call4_c_2 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_c_3 : Ref sig .tc := ⟨.hbm, 151, rfl⟩
abbrev main_call4_v12 : Ref sig .tc := ⟨.hbm, 152, rfl⟩
abbrev main_call4_v13 : Ref sig .tc := ⟨.hbm, 153, rfl⟩
abbrev main_call4_v14 : Ref sig .tc := ⟨.hbm, 154, rfl⟩
abbrev main_call4_cst : Ref sig .tc := ⟨.hbm, 155, rfl⟩
abbrev main_call4_v15 : Ref sig .tc := ⟨.hbm, 156, rfl⟩
abbrev main_v31 : Ref sig .tc := ⟨.hbm, 157, rfl⟩
abbrev main_cst_3 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem3_0 : DmaSem sig := 39
abbrev cc6_sem3_1 : DmaSem sig := 40

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![3], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![12], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![6, 12], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S2048x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  bcast_S_S393216 : S_.BroadcastsInDim S393216 (![] : Fin 0 → Fin S393216.rank)
  bcast_S393216_S393216x1_0 : S393216.BroadcastsInDim S393216x1 (![0] : Fin 1 → Fin S393216x1.rank)
  bcast_S_S393216x1 : S_.BroadcastsInDim S393216x1 (![] : Fin 0 → Fin S393216x1.rank)
  bcast_S1_S1x1_1 : S1.BroadcastsInDim S1x1 (![1] : Fin 1 → Fin S1x1.rank)
  bcast_S1x1_S393216x1_0_1 : S1x1.BroadcastsInDim S393216x1 (![0, 1] : Fin 2 → Fin S393216x1.rank)
  reducesTo_S393216x1_S393216_d1 : S393216x1.ReducesTo [1] S393216
  h_S_ : 0 < S_.numel
  bcast_S393216_S393216x64_0 : S393216.BroadcastsInDim S393216x64 (![0] : Fin 1 → Fin S393216x64.rank)
  bcast_S_S393216x64 : S_.BroadcastsInDim S393216x64 (![] : Fin 0 → Fin S393216x64.rank)
  bcast_S_S12288x64 : S_.BroadcastsInDim S12288x64 (![] : Fin 0 → Fin S12288x64.rank)
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  shapeCasts_S512_S1x512 : S512.ShapeCasts S1x512
  shapeCasts_S4096x64_S4096x64 : S4096x64.ShapeCasts S4096x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S2048x1024_S2048x1024_0_0 : ∀ a, (![0, 0] : Fin 2 → Nat) a + S2048x1024.size a ≤ S2048x1024.size a
  h_S2048x1024 : 0 < S2048x1024.numel
  dot_S4096x512_S512x64_S4096x64_1_0_0_1_n_n_wf : DotDims.WF S4096x512 S512x64 S4096x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S1024x64_S64x64_S1024x64_1_0_0_1_n_n_wf : DotDims.WF S1024x64 S64x64 S1024x64 [1] [0] [0] [1] [] []
  dot_S4096x64_S64x512_S4096x512_1_0_0_1_n_n_wf : DotDims.WF S4096x64 S64x512 S4096x512 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S12288x512.size a
  hwx0_0 : ∀ i : grid0.Coords, EltTy.bits .f32 = 32 ∨ (Rect.block (s := S12288x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S12288x64.size a
  hwx0_2 : ∀ i : grid0.Coords, EltTy.bits .f32 = 32 ∨ (Rect.block (s := S12288x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S12288x64.size a
  hwx1_0 : ∀ i : grid1.Coords, EltTy.bits .f32 = 32 ∨ (Rect.block (s := S12288x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S12288x64.size a
  hwx1_3 : ∀ i : grid1.Coords, EltTy.bits .f32 = 32 ∨ (Rect.block (s := S12288x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S12288x64.size a
  hwx2_0 : ∀ i : grid2.Coords, EltTy.bits .f32 = 32 ∨ (Rect.block (s := S12288x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S12288x64.size a
  hwx2_3 : ∀ i : grid2.Coords, EltTy.bits .f32 = 32 ∨ (Rect.block (s := S12288x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S12288x64.size a
  hwx3_0 : ∀ i : grid3.Coords, EltTy.bits .f32 = 32 ∨ (Rect.block (s := S12288x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S12288x64.size a
  hwx3_2 : ∀ i : grid3.Coords, EltTy.bits .f32 = 32 ∨ (Rect.block (s := S12288x64) S1024x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S12288x64.size a
  hwx4_0 : ∀ i : grid4.Coords, EltTy.bits .f32 = 32 ∨ (Rect.block (s := S12288x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x512.size a ≤ S64x512.size a
  hwx4_1 : ∀ i : grid4.Coords, EltTy.bits .f32 = 32 ∨ (Rect.block (s := S64x512) S64x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x512.size a ≤ S12288x512.size a
  hwx4_3 : ∀ i : grid4.Coords, EltTy.bits .f32 = 32 ∨ (Rect.block (s := S12288x512) S4096x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S12288x64.size a
  hwx5_0 : ∀ i : grid5.Coords, EltTy.bits .f32 = 32 ∨ (Rect.block (s := S12288x64) S1024x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x64.size a ≤ S12288x64.size a
  hwx5_3 : ∀ i : grid5.Coords, EltTy.bits .f32 = 32 ∨ (Rect.block (s := S12288x64) S1024x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S12288x64.size a
  hwx6_0 : ∀ i : grid6.Coords, EltTy.bits .f32 = 32 ∨ (Rect.block (s := S12288x64) S2048x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x64.size a ≤ S12288x64.size a
  hwx6_1 : ∀ i : grid6.Coords, EltTy.bits .f32 = 32 ∨ (Rect.block (s := S12288x64) S1024x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x1024.size a ≤ S12288x12288.size a
  hwx6_3 : ∀ i : grid6.Coords, EltTy.bits .f32 = 32 ∨ (Rect.block (s := S12288x12288) S2048x1024.size (cc6_transform_3 i) (hinb6_3 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v26) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v27) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S4096x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v14) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v30) S1024x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v34) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S1024x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v36) S2048x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S12288x512 : Shape := ⟨2, ![12288, 512]⟩
abbrev S2x393216 : Shape := ⟨2, ![2, 393216]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S1x393216 : Shape := ⟨2, ![1, 393216]⟩
abbrev S393216 : Shape := ⟨1, ![393216]⟩
abbrev S12288x64 : Shape := ⟨2, ![12288, 64]⟩
abbrev S_ : Shape := ⟨0, ![]⟩
abbrev S393216x1 : Shape := ⟨2, ![393216, 1]⟩
abbrev S393216x64 : Shape := ⟨2, ![393216, 64]⟩
abbrev S1x64 : Shape := ⟨2, ![1, 64]⟩
abbrev S393216x512 : Shape := ⟨2, ![393216, 512]⟩
abbrev S1x512 : Shape := ⟨2, ![1, 512]⟩
abbrev S64x12288 : Shape := ⟨2, ![64, 12288]⟩
abbrev S12288x12288 : Shape := ⟨2, ![12288, 12288]⟩

abbrev nBuf : Space → Nat
  | .hbm => 118
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S2x393216, .i32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S64x64, .f32⟩
  | .hbm, ⟨11, _⟩ => ⟨S64, .f32⟩
  | .hbm, ⟨12, _⟩ => ⟨S1x393216, .i32⟩
  | .hbm, ⟨13, _⟩ => ⟨S393216, .i32⟩
  | .hbm, ⟨14, _⟩ => ⟨S1x393216, .i32⟩
  | .hbm, ⟨15, _⟩ => ⟨S393216, .i32⟩
  | .hbm, ⟨16, _⟩ => ⟨S12288x64, .f32⟩
  | .hbm, ⟨17, _⟩ => ⟨S_, .i32⟩
  | .hbm, ⟨18, _⟩ => ⟨S393216, .i32⟩
  | .hbm, ⟨19, _⟩ => ⟨S393216, .i1⟩
  | .hbm, ⟨20, _⟩ => ⟨S_, .i32⟩
  | .hbm, ⟨21, _⟩ => ⟨S393216, .i32⟩
  | .hbm, ⟨22, _⟩ => ⟨S393216, .i32⟩
  | .hbm, ⟨23, _⟩ => ⟨S393216, .i32⟩
  | .hbm, ⟨24, _⟩ => ⟨S393216x1, .i32⟩
  | .hbm, ⟨25, _⟩ => ⟨S393216x64, .f32⟩
  | .hbm, ⟨26, _⟩ => ⟨S_, .f32⟩
  | .hbm, ⟨27, _⟩ => ⟨S12288x64, .f32⟩
  | .hbm, ⟨28, _⟩ => ⟨S393216x1, .i32⟩
  | .hbm, ⟨29, _⟩ => ⟨S12288x64, .f32⟩
  | .hbm, ⟨30, _⟩ => ⟨S1x64, .f32⟩
  | .hbm, ⟨31, _⟩ => ⟨S12288x64, .f32⟩
  | .hbm, ⟨32, _⟩ => ⟨S12288x64, .f32⟩
  | .hbm, ⟨33, _⟩ => ⟨S_, .f32⟩
  | .hbm, ⟨34, _⟩ => ⟨S12288x64, .f32⟩
  | .hbm, ⟨35, _⟩ => ⟨S12288x64, .f32⟩
  | .hbm, ⟨36, _⟩ => ⟨S12288x64, .f32⟩
  | .hbm, ⟨37, _⟩ => ⟨S_, .i32⟩
  | .hbm, ⟨38, _⟩ => ⟨S393216, .i32⟩
  | .hbm, ⟨39, _⟩ => ⟨S393216, .i1⟩
  | .hbm, ⟨40, _⟩ => ⟨S_, .i32⟩
  | .hbm, ⟨41, _⟩ => ⟨S393216, .i32⟩
  | .hbm, ⟨42, _⟩ => ⟨S393216, .i32⟩
  | .hbm, ⟨43, _⟩ => ⟨S393216, .i32⟩
  | .hbm, ⟨44, _⟩ => ⟨S393216x1, .i32⟩
  | .hbm, ⟨45, _⟩ => ⟨S393216x64, .f32⟩
  | .hbm, ⟨46, _⟩ => ⟨S_, .f32⟩
  | .hbm, ⟨47, _⟩ => ⟨S12288x64, .f32⟩
  | .hbm, ⟨48, _⟩ => ⟨S393216x1, .i32⟩
  | .hbm, ⟨49, _⟩ => ⟨S12288x64, .f32⟩
  | .hbm, ⟨50, _⟩ => ⟨S1x64, .f32⟩
  | .hbm, ⟨51, _⟩ => ⟨S12288x64, .f32⟩
  | .hbm, ⟨52, _⟩ => ⟨S12288x64, .f32⟩
  | .hbm, ⟨53, _⟩ => ⟨S_, .f32⟩
  | .hbm, ⟨54, _⟩ => ⟨S12288x64, .f32⟩
  | .hbm, ⟨55, _⟩ => ⟨S12288x64, .f32⟩
  | .hbm, ⟨56, _⟩ => ⟨S12288x64, .f32⟩
  | .hbm, ⟨57, _⟩ => ⟨S_, .i32⟩
  | .hbm, ⟨58, _⟩ => ⟨S393216, .i32⟩
  | .hbm, ⟨59, _⟩ => ⟨S393216, .i1⟩
  | .hbm, ⟨60, _⟩ => ⟨S_, .i32⟩
  | .hbm, ⟨61, _⟩ => ⟨S393216, .i32⟩
  | .hbm, ⟨62, _⟩ => ⟨S393216, .i32⟩
  | .hbm, ⟨63, _⟩ => ⟨S393216, .i32⟩
  | .hbm, ⟨64, _⟩ => ⟨S393216x1, .i32⟩
  | .hbm, ⟨65, _⟩ => ⟨S393216x64, .f32⟩
  | .hbm, ⟨66, _⟩ => ⟨S_, .f32⟩
  | .hbm, ⟨67, _⟩ => ⟨S12288x64, .f32⟩
  | .hbm, ⟨68, _⟩ => ⟨S393216x1, .i32⟩
  | .hbm, ⟨69, _⟩ => ⟨S12288x64, .f32⟩
  | .hbm, ⟨70, _⟩ => ⟨S1x64, .f32⟩
  | .hbm, ⟨71, _⟩ => ⟨S12288x64, .f32⟩
  | .hbm, ⟨72, _⟩ => ⟨S12288x64, .f32⟩
  | .hbm, ⟨73, _⟩ => ⟨S_, .f32⟩
  | .hbm, ⟨74, _⟩ => ⟨S12288x64, .f32⟩
  | .hbm, ⟨75, _⟩ => ⟨S12288x64, .f32⟩
  | .hbm, ⟨76, _⟩ => ⟨S12288x512, .f32⟩
  | .hbm, ⟨77, _⟩ => ⟨S_, .i32⟩
  | .hbm, ⟨78, _⟩ => ⟨S393216, .i32⟩
  | .hbm, ⟨79, _⟩ => ⟨S393216, .i1⟩
  | .hbm, ⟨80, _⟩ => ⟨S_, .i32⟩
  | .hbm, ⟨81, _⟩ => ⟨S393216, .i32⟩
  | .hbm, ⟨82, _⟩ => ⟨S393216, .i32⟩
  | .hbm, ⟨83, _⟩ => ⟨S393216, .i32⟩
  | .hbm, ⟨84, _⟩ => ⟨S393216x1, .i32⟩
  | .hbm, ⟨85, _⟩ => ⟨S393216x512, .f32⟩
  | .hbm, ⟨86, _⟩ => ⟨S_, .f32⟩
  | .hbm, ⟨87, _⟩ => ⟨S12288x512, .f32⟩
  | .hbm, ⟨88, _⟩ => ⟨S393216x1, .i32⟩
  | .hbm, ⟨89, _⟩ => ⟨S12288x512, .f32⟩
  | .hbm, ⟨90, _⟩ => ⟨S1x512, .f32⟩
  | .hbm, ⟨91, _⟩ => ⟨S12288x512, .f32⟩
  | .hbm, ⟨92, _⟩ => ⟨S12288x512, .f32⟩
  | .hbm, ⟨93, _⟩ => ⟨S_, .f32⟩
  | .hbm, ⟨94, _⟩ => ⟨S12288x512, .f32⟩
  | .hbm, ⟨95, _⟩ => ⟨S12288x512, .f32⟩
  | .hbm, ⟨96, _⟩ => ⟨S12288x64, .f32⟩
  | .hbm, ⟨97, _⟩ => ⟨S_, .i32⟩
  | .hbm, ⟨98, _⟩ => ⟨S393216, .i32⟩
  | .hbm, ⟨99, _⟩ => ⟨S393216, .i1⟩
  | .hbm, ⟨100, _⟩ => ⟨S_, .i32⟩
  | .hbm, ⟨101, _⟩ => ⟨S393216, .i32⟩
  | .hbm, ⟨102, _⟩ => ⟨S393216, .i32⟩
  | .hbm, ⟨103, _⟩ => ⟨S393216, .i32⟩
  | .hbm, ⟨104, _⟩ => ⟨S393216x1, .i32⟩
  | .hbm, ⟨105, _⟩ => ⟨S393216x64, .f32⟩
  | .hbm, ⟨106, _⟩ => ⟨S_, .f32⟩
  | .hbm, ⟨107, _⟩ => ⟨S12288x64, .f32⟩
  | .hbm, ⟨108, _⟩ => ⟨S393216x1, .i32⟩
  | .hbm, ⟨109, _⟩ => ⟨S12288x64, .f32⟩
  | .hbm, ⟨110, _⟩ => ⟨S1x64, .f32⟩
  | .hbm, ⟨111, _⟩ => ⟨S12288x64, .f32⟩
  | .hbm, ⟨112, _⟩ => ⟨S12288x64, .f32⟩
  | .hbm, ⟨113, _⟩ => ⟨S_, .f32⟩
  | .hbm, ⟨114, _⟩ => ⟨S12288x64, .f32⟩
  | .hbm, ⟨115, _⟩ => ⟨S12288x64, .f32⟩
  | .hbm, ⟨116, _⟩ => ⟨S64x12288, .f32⟩
  | .hbm, ⟨117, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_c_7 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call3_cst : Ref sig .tc := ⟨.hbm, 93, rfl⟩
abbrev main_call3_v0 : Ref sig .tc := ⟨.hbm, 94, rfl⟩
abbrev main_v63 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_c_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call4_cst : Ref sig .tc := ⟨.hbm, 113, rfl⟩
abbrev main_call4_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S_S12288x512 : S_.BroadcastsInDim S12288x512 (![] : Fin 0 → Fin S12288x512.rank)
  bcast_S512_S1x512_1 : S512.BroadcastsInDim S1x512 (![1] : Fin 1 → Fin S1x512.rank)
  bcast_S1x512_S12288x512_0_1 : S1x512.BroadcastsInDim S12288x512 (![0, 1] : Fin 2 → Fin S12288x512.rank)
  transposes_S12288x64_S64x12288_1_0 : S12288x64.Transposes [1, 0] S64x12288
  dot_S12288x512_S512x64_S12288x64_1_0_0_1_n_n_wf : DotDims.WF S12288x512 S512x64 S12288x64 [1] [0] [0] [1] [] []
  gather_S12288x64_S393216x1_S393216x64_1_0_n_n_0_1_164_wf : GatherDims.WF S12288x64 S393216x1 S393216x64 [1] [0] [] [0] [] 1 ![1, 64]
  scatter_S12288x64_S393216x1_S393216x64_1_0_0_1_wf : ScatterDims.WF S12288x64 S393216x1 S393216x64 [1] [0] [0] 1
  dot_S12288x64_S64x64_S12288x64_1_0_0_1_n_n_wf : DotDims.WF S12288x64 S64x64 S12288x64 [1] [0] [0] [1] [] []
  dot_S12288x64_S64x512_S12288x512_1_0_0_1_n_n_wf : DotDims.WF S12288x64 S64x512 S12288x512 [1] [0] [0] [1] [] []
  gather_S12288x512_S393216x1_S393216x512_1_0_n_n_0_1_1512_wf : GatherDims.WF S12288x512 S393216x1 S393216x512 [1] [0] [] [0] [] 1 ![1, 512]
  scatter_S12288x512_S393216x1_S393216x512_1_0_0_1_wf : ScatterDims.WF S12288x512 S393216x1 S393216x512 [1] [0] [0] 1
  dot_S12288x64_S64x12288_S12288x12288_1_0_0_1_n_n_wf : DotDims.WF S12288x64 S64x12288 S12288x12288 [1] [0] [0] [1] [] []

variable [Facts₀]

def dot_S12288x512_S512x64_S12288x64_1_0_0_1_n_n : DotDims S12288x512 S512x64 S12288x64 where
  lhsContracting := [1]
  rhsContracting := [0]
  lhsNonContracting := [0]
  rhsNonContracting := [1]
  lhsBatch := []
  rhsBatch := []
  wf := dot_S12288x512_S512x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def scatter_S12288x64_S393216x1_S393216x64_1_0_0_1 : ScatterDims S12288x64 S393216x1 S393216x64 where
  updateWindowDims := [1]
  insertedWindowDims := [0]
  scatterDimsToOperandDims := [0]
  indexVectorDim := 1
  wf := scatter_S12288x64_S393216x1_S393216x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x512_S12288x512_1_0_0_1_n_n : DotDims S12288x64 S64x512 S12288x512 where
  lhsContracting := [1]
  rhsContracting := [0]
  lhsNonContracting := [0]
  rhsNonContracting := [1]
  lhsBatch := []
  rhsBatch := []
  wf := dot_S12288x64_S64x512_S12288x512_1_0_0_1_n_n_wf
def gather_S12288x512_S393216x1_S393216x512_1_0_n_n_0_1_1512 : GatherDims S12288x512 S393216x1 S393216x512 where
  offsetDims := [1]
  collapsedSliceDims := [0]
  operandBatchingDims := []
  startIndicesBatchingDims := []
  startIndexMap := [0]
  indexVectorDim := 1
  sliceSizes := ![1, 512]
  wf := gather_S12288x512_S393216x1_S393216x512_1_0_n_n_0_1_1512_wf
def scatter_S12288x512_S393216x1_S393216x512_1_0_0_1 : ScatterDims S12288x512 S393216x1 S393216x512 where
  updateWindowDims := [1]
  insertedWindowDims := [0]
  scatterDimsToOperandDims := [0]
  indexVectorDim := 1
  wf := scatter_S12288x512_S393216x1_S393216x512_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.K.Reg0.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4096x512 := Rect.unit (s := S4096x512) ![0, 0] S4096x512.size inb_S4096x512_S4096x512_0_0
abbrev r0_1 : Rect S512x64 := Rect.unit (s := S512x64) ![0, 0] S512x64.size inb_S512x64_S512x64_0_0
abbrev r0_2 : Rect S4096x64 := Rect.unit (s := S4096x64) ![0, 0] S4096x64.size inb_S4096x64_S4096x64_0_0

def out0_2 (x0 : Vec F S4096x512 .f32) (x1 : Vec F S512x64 .f32) : Vec F S4096x64 .f32 :=
  View.canon [⟨r0_2, k0_pay1 (View.ld x0 r0_0) (View.ld x1 r0_1)⟩]

-- One store covers the whole output block: what it leaves there is the stored value, a function of the blocks read.
theorem sound_kernel0 (c : Dev nD) (E : Set ℕ) (i : grid0.Coords)
    (a0 : Memref sig .tc .vmem S4096x512 .f32) (ha0 : a0.IsWhole) (a1 : Memref sig .tc .vmem S512x64 .f32) (ha1 : a1.IsWhole) (a2 : Memref sig .tc .vmem S4096x64 .f32) (ha2 : a2.IsWhole)
    (x0 : Vec F S4096x512 .f32) (x1 : Vec F S512x64 .f32) (K : PUnit → sProp 𝕄) :
    iprop(owns c.tc a0 fullShare x0 ∗ owns c.tc a1 fullShare x1 ∗ (∃ d, owns c.tc a2 fullShare d)
        ∗ (iprop(owns c.tc a0 fullShare x0 ∗ owns c.tc a1 fullShare x1 ∗ owns c.tc a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  sl_exec
  sl_step
  iapply Hk
  isplitl [H0]; · iexists f0; iframe %hf0 H0
  isplitl [H1]; · iexists f1; iframe %hf1 H1
  iexists _; iframe H2
  ipureintro; subst hf0 hf1
  exact View.read_writes_eq_canon _ _ _ (View.cover_of_tiled _ S4096x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = (dat0 V c).after 0 t :=
  (dat0 V c).before_in_eq_fetched 0 rfl (fun _ => rfl) (fun _ _ _ => rfl) (fun _ => rfl) t d
theorem before0_1 (c : Dev nD) (t : Fin cfg0.N) (d) : (dat0 V c).before 1 t d = (dat0 V c).after 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1]
  rw [show (dat0 V c).after 2 t = out0_2 ((dat0 V c).after 0 t) ((dat0 V c).after 1 t) by dsimp only [dat0]]
  show _ ⊢ wp _ _ _ (bodyAt0 t) fun _ => iprop((dat0 V c).Φ t.castSucc ∗ (dat0 V c).owesAt () t.castSucc ∗ _)
  iintro ⟨HΦ, Ho, ⟨%_, H0⟩, ⟨%_, H1⟩, ⟨%_, H2⟩⟩
  iapply (sound_kernel0 c Set.univ _ _ _ _ _ _ _ ((dat0 V c).after 0 t) ((dat0 V c).after 1 t) _)
  iframe H0 H1
  isplitl [H2]; · iexists _; iexact H2
  iintro ⟨H0, H1, H2⟩
  iframe

end Cert.Kernel.Layers

end
-- ==== Proof.K.Reg1.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x64 := Rect.unit (s := S1024x64) ![0, 0] S1024x64.size inb_S1024x64_S1024x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0
abbrev r1_3 : Rect S1024x64 := Rect.unit (s := S1024x64) ![0, 0] S1024x64.size inb_S1024x64_S1024x64_0_0

def out1_3 (x0 : Vec F S1024x64 .f32) (x1 : Vec F S1x64 .f32) (x2 : Vec F S64x64 .f32) : Vec F S1024x64 .f32 :=
  View.canon [⟨r1_3, k1_pay1 (View.ld x0 r1_0) (View.ld x1 r1_1) (View.ld x2 r1_2)⟩]

-- One store covers the whole output block: what it leaves there is the stored value, a function of the blocks read.
theorem sound_kernel1 (c : Dev nD) (E : Set ℕ) (i : grid1.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out1_3 x0 x1 x2)) -∗ K ⟨⟩))
      ⊢ wp frame (wpE (defs₀ (F := F)) Variants.none c none) E (cc1__biasrelu_linear_kernel i a0 ha0 a1 ha1 a2 ha2 a3 ha3) K := by
  simp only [cc1__biasrelu_linear_kernel_eq_skeleton]; unfold cc1__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = (dat1 V c).after 0 t :=
  (dat1 V c).before_in_eq_fetched 0 rfl (fun _ => rfl) (fun _ _ _ => rfl) (fun _ => rfl) t d
theorem before1_1 (c : Dev nD) (t : Fin cfg1.N) (d) : (dat1 V c).before 1 t d = (dat1 V c).after 1 t :=
  (dat1 V c).before_in_eq_fetched 1 rfl (fun _ => rfl) (fun _ _ _ => rfl) (fun _ => rfl) t d
theorem before1_2 (c : Dev nD) (t : Fin cfg1.N) (d) : (dat1 V c).before 2 t d = (dat1 V c).after 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [show (dat1 V c).after 3 t = out1_3 ((dat1 V c).after 0 t) ((dat1 V c).after 1 t) ((dat1 V c).after 2 t) by dsimp only [dat1]]
  show _ ⊢ wp _ _ _ (bodyAt1 t) fun _ => iprop((dat1 V c).Φ t.castSucc ∗ (dat1 V c).owesAt () t.castSucc ∗ _)
  iintro ⟨HΦ, Ho, ⟨%_, H0⟩, ⟨%_, H1⟩, ⟨%_, H2⟩, ⟨%_, H3⟩⟩
  iapply (sound_kernel1 c Set.univ _ _ _ _ _ _ _ _ _ ((dat1 V c).after 0 t) ((dat1 V c).after 1 t) ((dat1 V c).after 2 t) _)
  iframe H0 H1 H2
  isplitl [H3]; · iexists _; iexact H3
  iintro ⟨H0, H1, H2, H3⟩
  iframe

end Cert.Kernel.Layers

end
-- ==== Proof.K.Reg2.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x64 := Rect.unit (s := S1024x64) ![0, 0] S1024x64.size inb_S1024x64_S1024x64_0_0
abbrev r2_1 : Rect S1x64 := Rect.unit (s := S1x64) ![0, 0] S1x64.size inb_S1x64_S1x64_0_0
abbrev r2_2 : Rect S64x64 := Rect.unit (s := S64x64) ![0, 0] S64x64.size inb_S64x64_S64x64_0_0
abbrev r2_3 : Rect S1024x64 := Rect.unit (s := S1024x64) ![0, 0] S1024x64.size inb_S1024x64_S1024x64_0_0

def out2_3 (x0 : Vec F S1024x64 .f32) (x1 : Vec F S1x64 .f32) (x2 : Vec F S64x64 .f32) : Vec F S1024x64 .f32 :=
  View.canon [⟨r2_3, k2_pay1 (View.ld x0 r2_0) (View.ld x1 r2_1) (View.ld x2 r2_2)⟩]

-- One store covers the whole output block: what it leaves there is the stored value, a function of the blocks read.
theorem sound_kernel2 (c : Dev nD) (E : Set ℕ) (i : grid2.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out2_3 x0 x1 x2)) -∗ K ⟨⟩))
      ⊢ wp frame (wpE (defs₀ (F := F)) Variants.none c none) E (cc2__biasrelu_linear_kernel i a0 ha0 a1 ha1 a2 ha2 a3 ha3) K := by
  simp only [cc2__biasrelu_linear_kernel_eq_skeleton]; unfold cc2__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = (dat2 V c).after 0 t :=
  (dat2 V c).before_in_eq_fetched 0 rfl (fun _ => rfl) (fun _ _ _ => rfl) (fun _ => rfl) t d
theorem before2_1 (c : Dev nD) (t : Fin cfg2.N) (d) : (dat2 V c).before 1 t d = (dat2 V c).after 1 t :=
  (dat2 V c).before_in_eq_fetched 1 rfl (fun _ => rfl) (fun _ _ _ => rfl) (fun _ => rfl) t d
theorem before2_2 (c : Dev nD) (t : Fin cfg2.N) (d) : (dat2 V c).before 2 t d = (dat2 V c).after 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2]
  rw [show (dat2 V c).after 3 t = out2_3 ((dat2 V c).after 0 t) ((dat2 V c).after 1 t) ((dat2 V c).after 2 t) by dsimp only [dat2]]
  show _ ⊢ wp _ _ _ (bodyAt2 t) fun _ => iprop((dat2 V c).Φ t.castSucc ∗ (dat2 V c).owesAt () t.castSucc ∗ _)
  iintro ⟨HΦ, Ho, ⟨%_, H0⟩, ⟨%_, H1⟩, ⟨%_, H2⟩, ⟨%_, H3⟩⟩
  iapply (sound_kernel2 c Set.univ _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Cert.Kernel.Layers

end
-- ==== Proof.K.Reg3.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x64 := Rect.unit (s := S1024x64) ![0, 0] S1024x64.size inb_S1024x64_S1024x64_0_0
abbrev r3_1 : Rect S1x64 := Rect.unit (s := S1x64) ![0, 0] S1x64.size inb_S1x64_S1x64_0_0
abbrev r3_2 : Rect S1024x64 := Rect.unit (s := S1024x64) ![0, 0] S1024x64.size inb_S1024x64_S1024x64_0_0

def out3_2 (x0 : Vec F S1024x64 .f32) (x1 : Vec F S1x64 .f32) : Vec F S1024x64 .f32 :=
  View.canon [⟨r3_2, k3_pay1 (View.ld x0 r3_0) (View.ld x1 r3_1)⟩]

-- One store covers the whole output block: what it leaves there is the stored value, a function of the blocks read.
theorem sound_kernel3 (c : Dev nD) (E : Set ℕ) (i : grid3.Coords)
    (a0 : Memref sig .tc .vmem S1024x64 .f32) (ha0 : a0.IsWhole) (a1 : Memref sig .tc .vmem S1x64 .f32) (ha1 : a1.IsWhole) (a2 : Memref sig .tc .vmem S1024x64 .f32) (ha2 : a2.IsWhole)
    (x0 : Vec F S1024x64 .f32) (x1 : Vec F S1x64 .f32) (K : PUnit → sProp 𝕄) :
    iprop(owns c.tc a0 fullShare x0 ∗ owns c.tc a1 fullShare x1 ∗ (∃ d, owns c.tc a2 fullShare d)
        ∗ (iprop(owns c.tc a0 fullShare x0 ∗ owns c.tc a1 fullShare x1 ∗ owns c.tc a2 fullShare (out3_2 x0 x1)) -∗ K ⟨⟩))
      ⊢ wp frame (wpE (defs₀ (F := F)) Variants.none c none) E (cc3__bias_relu_kernel i a0 ha0 a1 ha1 a2 ha2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  sl_exec
  sl_step
  iapply Hk
  isplitl [H0]; · iexists f0; iframe %hf0 H0
  isplitl [H1]; · iexists f1; iframe %hf1 H1
  iexists _; iframe H2
  ipureintro; subst hf0 hf1
  exact View.read_writes_eq_canon _ _ _ (View.cover_of_tiled _ S1024x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = (dat3 V c).after 0 t :=
  (dat3 V c).before_in_eq_fetched 0 rfl (fun _ => rfl) (fun _ _ _ => rfl) (fun _ => rfl) t d
theorem before3_1 (c : Dev nD) (t : Fin cfg3.N) (d) : (dat3 V c).before 1 t d = (dat3 V c).after 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1]
  rw [show (dat3 V c).after 2 t = out3_2 ((dat3 V c).after 0 t) ((dat3 V c).after 1 t) by dsimp only [dat3]]
  show _ ⊢ wp _ _ _ (bodyAt3 t) fun _ => iprop((dat3 V c).Φ t.castSucc ∗ (dat3 V c).owesAt () t.castSucc ∗ _)
  iintro ⟨HΦ, Ho, ⟨%_, H0⟩, ⟨%_, H1⟩, ⟨%_, H2⟩⟩
  iapply (sound_kernel3 c Set.univ _ _ _ _ _ _ _ ((dat3 V c).after 0 t) ((dat3 V c).after 1 t) _)
  iframe H0 H1
  isplitl [H2]; · iexists _; iexact H2
  iintro ⟨H0, H1, H2⟩
  iframe

end Cert.Kernel.Layers

end
-- ==== Proof.K.Reg4.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4096x64 := Rect.unit (s := S4096x64) ![0, 0] S4096x64.size inb_S4096x64_S4096x64_0_0
abbrev r4_1 : Rect S64x512 := Rect.unit (s := S64x512) ![0, 0] S64x512.size inb_S64x512_S64x512_0_0
abbrev r4_2 : Rect S1x512 := Rect.unit (s := S1x512) ![0, 0] S1x512.size inb_S1x512_S1x512_0_0
abbrev r4_3 : Rect S4096x512 := Rect.unit (s := S4096x512) ![0, 0] S4096x512.size inb_S4096x512_S4096x512_0_0

def out4_3 (x0 : Vec F S4096x64 .f32) (x1 : Vec F S64x512 .f32) (x2 : Vec F S1x512 .f32) : Vec F S4096x512 .f32 :=
  View.canon [⟨r4_3, k4_pay1 (View.ld x0 r4_0) (View.ld x1 r4_1) (View.ld x2 r4_2)⟩]

-- One store covers the whole output block: what it leaves there is the stored value, a function of the blocks read.
theorem sound_kernel4 (c : Dev nD) (E : Set ℕ) (i : grid4.Coords)
    (a0 : Memref sig .tc .vmem S4096x64 .f32) (ha0 : a0.IsWhole) (a1 : Memref sig .tc .vmem S64x512 .f32) (ha1 : a1.IsWhole) (a2 : Memref sig .tc .vmem S1x512 .f32) (ha2 : a2.IsWhole) (a3 : Memref sig .tc .vmem S4096x512 .f32) (ha3 : a3.IsWhole)
    (x0 : Vec F S4096x64 .f32) (x1 : Vec F S64x512 .f32) (x2 : Vec F S1x512 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out4_3 x0 x1 x2)) -∗ K ⟨⟩))
      ⊢ wp frame (wpE (defs₀ (F := F)) Variants.none c none) E (cc4__linear_biasrelu_kernel i a0 ha0 a1 ha1 a2 ha2 a3 ha3) K := by
  simp only [cc4__linear_biasrelu_kernel_eq_skeleton]; unfold cc4__linear_biasrelu_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S4096x512.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = (dat4 V c).after 0 t :=
  (dat4 V c).before_in_eq_fetched 0 rfl (fun _ => rfl) (fun _ _ _ => rfl) (fun _ => rfl) t d
theorem before4_1 (c : Dev nD) (t : Fin cfg4.N) (d) : (dat4 V c).before 1 t d = (dat4 V c).after 1 t :=
  (dat4 V c).before_in_eq_fetched 1 rfl (fun _ => rfl) (fun _ _ _ => rfl) (fun _ => rfl) t d
theorem before4_2 (c : Dev nD) (t : Fin cfg4.N) (d) : (dat4 V c).before 2 t d = (dat4 V c).after 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [before4_0, before4_1, before4_2]
  rw [show (dat4 V c).after 3 t = out4_3 ((dat4 V c).after 0 t) ((dat4 V c).after 1 t) ((dat4 V c).after 2 t) by dsimp only [dat4]]
  show _ ⊢ wp _ _ _ (bodyAt4 t) fun _ => iprop((dat4 V c).Φ t.castSucc ∗ (dat4 V c).owesAt () t.castSucc ∗ _)
  iintro ⟨HΦ, Ho, ⟨%_, H0⟩, ⟨%_, H1⟩, ⟨%_, H2⟩, ⟨%_, H3⟩⟩
  iapply (sound_kernel4 c Set.univ _ _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Cert.Kernel.Layers

end
-- ==== Proof.K.Reg5.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x64 := Rect.unit (s := S1024x64) ![0, 0] S1024x64.size inb_S1024x64_S1024x64_0_0
abbrev r5_1 : Rect S1x64 := Rect.unit (s := S1x64) ![0, 0] S1x64.size inb_S1x64_S1x64_0_0
abbrev r5_2 : Rect S64x64 := Rect.unit (s := S64x64) ![0, 0] S64x64.size inb_S64x64_S64x64_0_0
abbrev r5_3 : Rect S1024x64 := Rect.unit (s := S1024x64) ![0, 0] S1024x64.size inb_S1024x64_S1024x64_0_0

def out5_3 (x0 : Vec F S1024x64 .f32) (x1 : Vec F S1x64 .f32) (x2 : Vec F S64x64 .f32) : Vec F S1024x64 .f32 :=
  View.canon [⟨r5_3, k5_pay1 (View.ld x0 r5_0) (View.ld x1 r5_1) (View.ld x2 r5_2)⟩]

-- One store covers the whole output block: what it leaves there is the stored value, a function of the blocks read.
theorem sound_kernel5 (c : Dev nD) (E : Set ℕ) (i : grid5.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out5_3 x0 x1 x2)) -∗ K ⟨⟩))
      ⊢ wp frame (wpE (defs₀ (F := F)) Variants.none c none) E (cc5__biasrelu_linear_kernel i a0 ha0 a1 ha1 a2 ha2 a3 ha3) K := by
  simp only [cc5__biasrelu_linear_kernel_eq_skeleton]; unfold cc5__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = (dat5 V c).after 0 t :=
  (dat5 V c).before_in_eq_fetched 0 rfl (fun _ => rfl) (fun _ _ _ => rfl) (fun _ => rfl) t d
theorem before5_1 (c : Dev nD) (t : Fin cfg5.N) (d) : (dat5 V c).before 1 t d = (dat5 V c).after 1 t :=
  (dat5 V c).before_in_eq_fetched 1 rfl (fun _ => rfl) (fun _ _ _ => rfl) (fun _ => rfl) t d
theorem before5_2 (c : Dev nD) (t : Fin cfg5.N) (d) : (dat5 V c).before 2 t d = (dat5 V c).after 2 t :=
  (dat5 V c).before_in_eq_fetched 2 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2]
  rw [show (dat5 V c).after 3 t = out5_3 ((dat5 V c).after 0 t) ((dat5 V c).after 1 t) ((dat5 V c).after 2 t) by dsimp only [dat5]]
  show _ ⊢ wp _ _ _ (bodyAt5 t) fun _ => iprop((dat5 V c).Φ t.castSucc ∗ (dat5 V c).owesAt () t.castSucc ∗ _)
  iintro ⟨HΦ, Ho, ⟨%_, H0⟩, ⟨%_, H1⟩, ⟨%_, H2⟩, ⟨%_, H3⟩⟩
  iapply (sound_kernel5 c Set.univ _ _ _ _ _ _ _ _ _ ((dat5 V c).after 0 t) ((dat5 V c).after 1 t) ((dat5 V c).after 2 t) _)
  iframe H0 H1 H2
  isplitl [H3]; · iexists _; iexact H3
  iintro ⟨H0, H1, H2, H3⟩
  iframe

end Cert.Kernel.Layers

end
-- ==== Proof.K.Reg6.lean ====
import proofs.«427227_j17824114279158_3_alg».proof.Proof.Gen.Kernel.Launch
import proofs.«427227_j17824114279158_3_alg».proof.Proof.Gen.Kernel.Skeleton
import proofs.«427227_j17824114279158_3_alg».proof.Proof.Gen.Kernel.Points
import Idealize.ShloMosaic.Lib.Pipeline.FrameBody
import Idealize.ShloMosaic.Lib.Ring

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2048x64 := Rect.unit (s := S2048x64) ![0, 0] S2048x64.size inb_S2048x64_S2048x64_0_0
abbrev r6_1 : Rect S1024x64 := Rect.unit (s := S1024x64) ![0, 0] S1024x64.size inb_S1024x64_S1024x64_0_0
abbrev r6_2 : Rect S1x64 := Rect.unit (s := S1x64) ![0, 0] S1x64.size inb_S1x64_S1x64_0_0
abbrev r6_3 : Rect S2048x1024 := Rect.unit (s := S2048x1024) ![0, 0] S2048x1024.size inb_S2048x1024_S2048x1024_0_0

def out6_3 (x0 : Vec F S2048x64 .f32) (x1 : Vec F S1024x64 .f32) (x2 : Vec F S1x64 .f32) : Vec F S2048x1024 .f32 :=
  View.canon [⟨r6_3, k6_pay1 (View.ld x2 r6_2) (View.ld x0 r6_0) (View.ld x1 r6_1)⟩]

-- One store covers the whole output block: what it leaves there is the stored value, a function of the blocks read.
theorem sound_kernel6 (c : Dev nD) (E : Set ℕ) (i : grid6.Coords)
    (a0 : Memref sig .tc .vmem S2048x64 .f32) (ha0 : a0.IsWhole) (a1 : Memref sig .tc .vmem S1024x64 .f32) (ha1 : a1.IsWhole) (a2 : Memref sig .tc .vmem S1x64 .f32) (ha2 : a2.IsWhole) (a3 : Memref sig .tc .vmem S2048x1024 .f32) (ha3 : a3.IsWhole)
    (x0 : Vec F S2048x64 .f32) (x1 : Vec F S1024x64 .f32) (x2 : Vec F S1x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out6_3 x0 x1 x2)) -∗ K ⟨⟩))
      ⊢ wp frame (wpE (defs₀ (F := F)) Variants.none c none) E (cc6__outer_product_kernel i a0 ha0 a1 ha1 a2 ha2 a3 ha3) K := by
  simp only [cc6__outer_product_kernel_eq_skeleton]; unfold cc6__outer_product_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S2048x1024.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q w := match w with
    | ⟨0, _⟩ => fullShare.left
    | ⟨1, _⟩ => fullShare.right
    | ⟨2, _⟩ => fullShare
    | ⟨3, _⟩ => fullShare
  owed _ := 0

theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = (dat6 V c).after 0 t :=
  (dat6 V c).before_in_eq_fetched 0 rfl (fun _ => rfl) (fun _ _ _ => rfl) (fun _ => rfl) t d
theorem before6_1 (c : Dev nD) (t : Fin cfg6.N) (d) : (dat6 V c).before 1 t d = (dat6 V c).after 1 t :=
  (dat6 V c).before_in_eq_fetched 1 rfl (fun _ => rfl) (fun _ _ _ => rfl) (fun _ => rfl) t d
theorem before6_2 (c : Dev nD) (t : Fin cfg6.N) (d) : (dat6 V c).before 2 t d = (dat6 V c).after 2 t :=
  (dat6 V c).before_in_eq_fetched 2 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp only [before6_0, before6_1, before6_2]
  rw [show (dat6 V c).after 3 t = out6_3 ((dat6 V c).after 0 t) ((dat6 V c).after 1 t) ((dat6 V c).after 2 t) by dsimp only [dat6]]
  show _ ⊢ wp _ _ _ (bodyAt6 t) fun _ => iprop((dat6 V c).Φ t.castSucc ∗ (dat6 V c).owesAt () t.castSucc ∗ _)
  iintro ⟨HΦ, Ho, ⟨%_, H0⟩, ⟨%_, H1⟩, ⟨%_, H2⟩, ⟨%_, H3⟩⟩
  iapply (sound_kernel6 c Set.univ _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe

end Cert.Kernel.Layers

end
-- ==== Proof.K.Data.lean ====
import proofs.«427227_j17824114279158_3_alg».proof.Proof.Gen.Kernel.Regions
import proofs.«427227_j17824114279158_3_alg».proof.Proof.K.Reg0
import proofs.«427227_j17824114279158_3_alg».proof.Proof.K.Reg1
import proofs.«427227_j17824114279158_3_alg».proof.Proof.K.Reg2
import proofs.«427227_j17824114279158_3_alg».proof.Proof.K.Reg3
import proofs.«427227_j17824114279158_3_alg».proof.Proof.K.Reg4
import proofs.«427227_j17824114279158_3_alg».proof.Proof.K.Reg5
import proofs.«427227_j17824114279158_3_alg».proof.Proof.K.Reg6
import Idealize.ShloMosaic.Lib.Pipeline.Kit

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev En0 : (c : Dev nD) → (b : Ref sig .tc) → Buf (Elt F) ((c : Thread nD τ).loc b) := fun c b => V1 m c b
abbrev En1 : (c : Dev nD) → (b : Ref sig .tc) → Buf (Elt F) ((c : Thread nD τ).loc b) := fun c b => V4 m outs c b
abbrev En2 : (c : Dev nD) → (b : Ref sig .tc) → Buf (Elt F) ((c : Thread nD τ).loc b) := fun c b => V7 m outs c b
abbrev En3 : (c : Dev nD) → (b : Ref sig .tc) → Buf (Elt F) ((c : Thread nD τ).loc b) := fun c b => V10 m outs c b
abbrev En4 : (c : Dev nD) → (b : Ref sig .tc) → Buf (Elt F) ((c : Thread nD τ).loc b) := fun c b => V13 m outs c b
abbrev En5 : (c : Dev nD) → (b : Ref sig .tc) → Buf (Elt F) ((c : Thread nD τ).loc b) := fun c b => V15 m outs c b
abbrev En6 : (c : Dev nD) → (b : Ref sig .tc) → Buf (Elt F) ((c : Thread nD τ).loc b) := fun c b => V18 m outs c b

def pdats : (p : Fin 7) → (c : Dev nD) → Dat τ (Elt F) Unit ℕ (UR sig nD τ) ℕ (cfgs p) c
  | ⟨0, _⟩ => fun c => dat0 (En0 m) c
  | ⟨1, _⟩ => fun c => dat1 (En1 m outs) c
  | ⟨2, _⟩ => fun c => dat2 (En2 m outs) c
  | ⟨3, _⟩ => fun c => dat3 (En3 m outs) c
  | ⟨4, _⟩ => fun c => dat4 (En4 m outs) c
  | ⟨5, _⟩ => fun c => dat5 (En5 m outs) c
  | ⟨6, _⟩ => fun c => dat6 (En6 m outs) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Layers

end
-- ==== Proof.K.Outs.lean ====
import proofs.«427227_j17824114279158_3_alg».proof.Proof.K.Data

noncomputable section

namespace Cert.Kernel.Layers

open Cert.Kernel Cert.Kernel.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

def setAt (o : Outs (F := F)) (J₀ : ℕ) (r₀ : Ref sig .tc) (v : (c : Dev nD) → Buf (Elt F) ((c : Thread nD τ).loc r₀)) : Outs (F := F) :=
  fun J r c => if J = J₀ then (if h : r = r₀ then h ▸ v c else o J r c) else o J r c

variable (o : Outs (F := F)) (J₀ : ℕ) (r₀ : Ref sig .tc) (v : (c : Dev nD) → Buf (Elt F) ((c : Thread nD τ).loc r₀))

theorem setAt_ne {J : ℕ} (h : J ≠ J₀) (r : Ref sig .tc) (c : Dev nD) : setAt o J₀ r₀ v J r c = o J r c := by
  unfold setAt; rw [if_neg h]
theorem setAt_self (c : Dev nD) : setAt o J₀ r₀ v J₀ r₀ c = v c := by
  unfold setAt; rw [if_pos rfl, dif_pos rfl]

-- Two tables agree up to item n.
def Agree (n : ℕ) (o o' : Outs (F := F)) : Prop := ∀ J ≤ n, ∀ r c, o J r c = o' J r c

theorem agree_setAt {n : ℕ} (h : n < J₀) : Agree n (setAt o J₀ r₀ v) o := fun J hJ r c => setAt_ne o J₀ r₀ v (by omega) r c

section
variable {m} {o o' o'' : Outs (F := F)} {n n' : ℕ}

theorem Agree.trans (h : Agree n o o') (h' : Agree n o' o'') : Agree n o o'' := fun J hJ r c => (h J hJ r c).trans (h' J hJ r c)
theorem Agree.mono (h : Agree n o o') (hn : n' ≤ n) : Agree n' o o' := fun J hJ => h J (hJ.trans hn)

-- The contents before a region read the table only at the earlier regions' items.
theorem V4_congr (h : Agree 2 o o') (c : Dev nD) : V4 m o c = V4 m o' c := by
  unfold V4 V3 V2; rw [h 2 le_rfl]
theorem V7_congr (h : Agree 5 o o') (c : Dev nD) : V7 m o c = V7 m o' c := by
  unfold V7 V6 V5; rw [V4_congr (h.mono (by decide)) c, h 5 le_rfl]
theorem V10_congr (h : Agree 8 o o') (c : Dev nD) : V10 m o c = V10 m o' c := by
  unfold V10 V9 V8; rw [V7_congr (h.mono (by decide)) c, h 8 le_rfl]
theorem V13_congr (h : Agree 11 o o') (c : Dev nD) : V13 m o c = V13 m o' c := by
  unfold V13 V12 V11; rw [V10_congr (h.mono (by decide)) c, h 11 le_rfl]
theorem V15_congr (h : Agree 14 o o') (c : Dev nD) : V15 m o c = V15 m o' c := by
  unfold V15 V14; rw [V13_congr (h.mono (by decide)) c, h 14 le_rfl]
theorem V18_congr (h : Agree 16 o o') (c : Dev nD) : V18 m o c = V18 m o' c := by
  unfold V18 V17 V16; rw [V15_congr (h.mono (by decide)) c, h 16 le_rfl]

end

-- Each region's output, from the contents it is entered with, which depend only on the outputs before it.
def outs0 : Outs (F := F) := setAt (fun _ r c => m ((c : Thread nD τ).loc r)) 2 main_v4 fun c => (dat0 (En0 m) c).arrAt 2 cfg0.N
def outs1 : Outs (F := F) := setAt (outs0 m) 5 main_v10 fun c => (dat1 (En1 m (outs0 m)) c).arrAt 3 cfg1.N
def outs2 : Outs (F := F) := setAt (outs1 m) 8 main_v16 fun c => (dat2 (En2 m (outs1 m)) c).arrAt 3 cfg2.N
def outs3 : Outs (F := F) := setAt (outs2 m) 11 main_v22 fun c => (dat3 (En3 m (outs2 m)) c).arrAt 2 cfg3.N
def outs4 : Outs (F := F) := setAt (outs3 m) 14 main_v28 fun c => (dat4 (En4 m (outs3 m)) c).arrAt 3 cfg4.N
def outs5 : Outs (F := F) := setAt (outs4 m) 16 main_v30 fun c => (dat5 (En5 m (outs4 m)) c).arrAt 3 cfg5.N
def outs6 : Outs (F := F) := setAt (outs5 m) 19 main_v36 fun c => (dat6 (En6 m (outs5 m)) c).arrAt 3 cfg6.N

abbrev outs : Outs (F := F) := outs6 m

theorem agree5 : Agree 16 (outs m) (outs5 m) := agree_setAt _ _ _ _ (by decide)
theorem agree4 : Agree 14 (outs m) (outs4 m) := ((agree5 m).mono (by decide)).trans (agree_setAt _ _ _ _ (by decide))
theorem agree3 : Agree 11 (outs m) (outs3 m) := ((agree4 m).mono (by decide)).trans (agree_setAt _ _ _ _ (by decide))
theorem agree2 : Agree 8 (outs m) (outs2 m) := ((agree3 m).mono (by decide)).trans (agree_setAt _ _ _ _ (by decide))
theorem agree1 : Agree 5 (outs m) (outs1 m) := ((agree2 m).mono (by decide)).trans (agree_setAt _ _ _ _ (by decide))
theorem agree0 : Agree 2 (outs m) (outs0 m) := ((agree1 m).mono (by decide)).trans (agree_setAt _ _ _ _ (by decide))

-- The table names each region's output at the contents the region is entered with.
theorem outs_H0 (c : Dev nD) : outs m 2 main_v4 c = (dat0 (En0 m) c).arrAt 2 cfg0.N :=
  (agree0 m 2 le_rfl _ c).trans (setAt_self ..)
theorem outs_H1 (c : Dev nD) : outs m 5 main_v10 c = (dat1 (En1 m (outs m)) c).arrAt 3 cfg1.N := by
  rw [show En1 m (outs m) = En1 m (outs0 m) from funext fun c => funext fun b => congrFun (V4_congr (agree0 m) c) b]
  exact (agree1 m 5 le_rfl _ c).trans (setAt_self ..)
theorem outs_H2 (c : Dev nD) : outs m 8 main_v16 c = (dat2 (En2 m (outs m)) c).arrAt 3 cfg2.N := by
  rw [show En2 m (outs m) = En2 m (outs1 m) from funext fun c => funext fun b => congrFun (V7_congr (agree1 m) c) b]
  exact (agree2 m 8 le_rfl _ c).trans (setAt_self ..)
theorem outs_H3 (c : Dev nD) : outs m 11 main_v22 c = (dat3 (En3 m (outs m)) c).arrAt 2 cfg3.N := by
  rw [show En3 m (outs m) = En3 m (outs2 m) from funext fun c => funext fun b => congrFun (V10_congr (agree2 m) c) b]
  exact (agree3 m 11 le_rfl _ c).trans (setAt_self ..)
theorem outs_H4 (c : Dev nD) : outs m 14 main_v28 c = (dat4 (En4 m (outs m)) c).arrAt 3 cfg4.N := by
  rw [show En4 m (outs m) = En4 m (outs3 m) from funext fun c => funext fun b => congrFun (V13_congr (agree3 m) c) b]
  exact (agree4 m 14 le_rfl _ c).trans (setAt_self ..)
theorem outs_H5 (c : Dev nD) : outs m 16 main_v30 c = (dat5 (En5 m (outs m)) c).arrAt 3 cfg5.N := by
  rw [show En5 m (outs m) = En5 m (outs4 m) from funext fun c => funext fun b => congrFun (V15_congr (agree4 m) c) b]
  exact (agree5 m 16 le_rfl _ c).trans (setAt_self ..)
theorem outs_H6 (c : Dev nD) : outs m 19 main_v36 c = (dat6 (En6 m (outs m)) c).arrAt 3 cfg6.N := by
  rw [show En6 m (outs m) = En6 m (outs5 m) from funext fun c => funext fun b => congrFun (V18_congr (agree5 m) c) b]
  exact setAt_self ..

end Cert.Kernel.Layers

end
-- ==== Proof.K.Item.lean ====
import proofs.«427227_j17824114279158_3_alg».proof.Proof.K.Data
import Idealize.ShloMosaic.Lib.Pipeline.RegionsLoop

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev atTc (c : Dev nD) (V : Valuation τ sig (Elt F)) : (b : Ref sig .tc) → Buf (Elt F) ((c : Thread nD τ).loc b) := fun b => V b

section Item

set_option backward.isDefEq.respectTransparency.types false in
-- One region as a step of the program: the buffers' contents Vin before it become Vout after it.
def regOf (p : Fin 7) (win : Pipeline.WinFacts₀ (pcfgs (F := F) p).spec)
    (block_pos : ∀ w : Fin (pcfgs (F := F) p).W, 0 < ((pcfgs (F := F) p).spec w).block.numel)
    (stage_whole : ∀ (w : Fin (pcfgs (F := F) p).W) (s : Fin ((pcfgs (F := F) p).spec w).nbuf), (((pcfgs (F := F) p).spec w).stage s).IsWhole)
    (hbody : ∀ c, BodyObligation (pdats m outs p c) (defs₀ (F := F)) Variants.none () Set.univ)
    (Vin Vout : (c : Dev nD) → Valuation τ sig (Elt F))
    (hΦ : ∀ c t, (pdats m outs p c).Φ t = Pipeline.ΦA (pcfgs (F := F) p).spec c)
    (howed : ∀ c t, (pdats m outs p c).owed t = 0) (hrec : ∀ c t, (pdats m outs p c).recorded t = Set.univ)
    (hsplit : ∀ c, (unscopedBufs c (atTc c (Vin c)) : sProp 𝕄)
      ⊢ iprop((pdats m outs p c).arrays (fun w => (pdats m outs p c).arrAt w 0) ∗ Pipeline.unscopedRest (pcfgs (F := F) p).spec c (atTc c (Vin c))))
    (hjoin : ∀ c, iprop((pdats m outs p c).arrays (fun w => (pdats m outs p c).arrAt w (cfgs p).N) ∗ Pipeline.unscopedRest (pcfgs (F := F) p).spec c (atTc c (Vin c)))
      ⊢ (unscopedBufs c (atTc c (Vout c)) : sProp 𝕄)) :
    Pipeline.RegionSeg (pcfgs (F := F)) adm (pdats m outs) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc c (Vin c))
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [howed c _]
    icases HO with ⟨%W, -, HO⟩; iexists W; iexact HO

end Item

section Launch

variable (p : Fin 7) (lf : Pipeline.LaunchFacts (nD := nD) (τ := τ) cfgs p)
  (hbody : ∀ c, BodyObligation (pdats m outs p c) (defs₀ (F := F)) Variants.none () Set.univ)
  (Vin : (c : Dev nD) → Valuation τ sig (Elt F)) (oref : Ref sig .tc) (o : (c : Dev nD) → Buf (Elt F) ((c : Thread nD τ).loc oref))
  (wo : Fin (cfgs p).W) (hwo : Pipeline.arrRef (cfgs p).spec wo = oref)
  (hΦ : ∀ c t, (pdats m outs p c).Φ t = Pipeline.ΦA (pcfgs (F := F) p).spec c)
  (howed : ∀ c t, (pdats m outs p c).owed t = 0) (hrec : ∀ c t, (pdats m outs p c).recorded t = Set.univ)
  (hq : ∀ c w, (pdats m outs p c).q w = fullShare)
  (hA : ∀ c w, (pdats m outs p c).A w = Vin c (Pipeline.arrRef (cfgs p).spec w))
  (hin : ∀ w, w ≠ wo → ((cfgs p).win w).isOut = false ∧ Pipeline.arrRef (cfgs p).spec w ≠ oref)
  (hout : ∀ c, HEq ((pdats m outs p c).arrAt wo (cfgs p).N) (o c))

include lf hq hA in
theorem split_of_launch (c : Dev nD) : (unscopedBufs c (atTc c (Vin c)) : sProp 𝕄)
    ⊢ iprop((pdats m outs p c).arrays (fun w => (pdats m outs p c).arrAt w 0) ∗ Pipeline.unscopedRest (pcfgs (F := F) p).spec c (atTc c (Vin c))) :=
  Pipeline.arrays_of_unscopedBufs (p := p) (pcfgs (F := F)) adm (pdats m outs) lf.win lf.arr_whole c
    ((pdats m outs p c).share_full (hq c)) (atTc c (Vin c)) (hA c)

include lf hq hA hin hout hwo in
theorem join_of_launch (c : Dev nD) : iprop((pdats m outs p c).arrays (fun w => (pdats m outs p c).arrAt w (cfgs p).N) ∗ Pipeline.unscopedRest (pcfgs (F := F) p).spec c (atTc c (Vin c)))
    ⊢ (unscopedBufs c (atTc c (Function.update (Vin c) oref (o c))) : sProp 𝕄) :=
  Pipeline.unscopedBufs_of_arrays (p := p) (pcfgs (F := F)) adm (Ix := Unit) (Name := ℕ) (U := UR sig nD τ) (Lvl := ℕ)
    lf.win lf.arr_whole c (pdats m outs) ((pdats m outs p c).share_full (hq c)) (atTc c (Vin c))
    (atTc c (Function.update (Vin c) oref (o c))) (fun w => (pdats m outs p c).arrAt w (cfgs p).N)
    (fun w => if h : w = wo then by subst h hwo; exact (eq_of_heq (hout c)).trans (Function.update_self (Proc.devRef .tc (Pipeline.arrRef (cfgs p).spec w) : DevRef τ sig) (o c) (Vin c)).symm else ((pdats m outs p c).arrAt_in w (hin w h).1 _).trans
      ((hA c w).trans (Function.update_of_ne (StableHlo.devRef_ne_of_ne (hin w h).2) _ _).symm))
    fun b hb => Function.update_of_ne (StableHlo.devRef_ne_of_ne fun h => hb (Finset.mem_image.mpr ⟨wo, Finset.mem_univ _, hwo.trans h.symm⟩)) _ _

-- The case of a region over distinct arrays that changes one of them, oref, to o.
def regOfLaunch : Pipeline.RegionSeg (pcfgs (F := F)) adm (pdats m outs) () defs₀ 𝒱₀ L lv p :=
  regOf m outs p lf.win.to₀ lf.block_pos lf.stage_whole hbody Vin (fun c => Function.update (Vin c) oref (o c)) hΦ howed hrec
    (split_of_launch m outs p lf Vin hq hA) (join_of_launch m outs p lf Vin oref o wo hwo hq hA hin hout)

end Launch

end Cert.Kernel.Layers

end
-- ==== Proof.K.Rec6.lean ====
import proofs.«427227_j17824114279158_3_alg».proof.Proof.K.Item
import Idealize.ShloMosaic.Rules.PointsTo

noncomputable section

namespace Cert.Kernel.Layers

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)

variable {F : FTy → Type} [FloatOps F]

local notation "𝕄" => MT nD τ sig Unit (Elt F) ℕ (UR sig nD τ) ℕ

-- Two of the four windows read one and the same array, each with half of it; the other two arrays are each behind one window.
theorem arrays6 (c : Dev nD) (D : Dat τ (Elt F) Unit ℕ (UR sig nD τ) ℕ cfg6 c)
    (hq0 : D.q 0 = fullShare.left) (hq1 : D.q 1 = fullShare.right) (hq2 : D.q 2 = fullShare)
    (V : (b : Ref sig .tc) → Buf (Elt F) ((c : Thread nD τ).loc b))
    (Fw : (w : Fin cfg6.W) → Buf (Elt F) ((cfg6.win w).arr.view.loc (c : Thread nD τ))) (hF : ∀ w, Fw w = V (Pipeline.arrRef spec6 w)) :
    (Pipeline.arrBufs spec6 c V : sProp 𝕄) ⊣⊢ D.arrays Fw := by
  unfold Pipeline.arrBufs Dat.arrays Dat.share
  have e (w : Fin cfg6.W) : (cfg6.win w).arr.view.set = Finset.univ := (arr_whole6 w).set_eq_univ
  rw [show Finset.univ.image (Pipeline.arrRef spec6) = ({main_v34, main_v35, main_v36} : Finset (Ref sig .tc)) by decide,
    bigSep_insert (by decide), bigSep_insert (by decide), bigSep_singleton, bigSep_W6, e 0, e 2, e 3,
    if_neg (by decide), if_neg (by decide), if_neg (by decide), if_pos (by decide), hq0, hq1, hq2, hF 0, hF 1, hF 2, hF 3]
  exact (sep_congr_left (pointsTo_share (PosShare.mem_left_op_right fullShare))).trans sep_assoc

variable (m : (ℓ : Loc nD τ sig) → Buf (Elt F) ℓ) (outs : Outs (F := F))

theorem hF6 (H : ∀ c, outs 19 main_v36 c = (dat6 (En6 m outs) c).arrAt 3 cfg6.N) (c : Dev nD) (w : Fin cfg6.W) :
    (dat6 (En6 m outs) c).arrAt w cfg6.N = atTc c (V19 m outs c) (Pipeline.arrRef spec6 w) :=
  match w with
  | ⟨0, _⟩ | ⟨1, _⟩ => ((dat6 (En6 m outs) c).arrAt_in _ rfl _).trans (V19_of m outs c main_v34 (by decide)).symm
  | ⟨2, _⟩ => ((dat6 (En6 m outs) c).arrAt_in 2 rfl _).trans (V19_of m outs c main_v35 (by decide)).symm
  | ⟨3, _⟩ => (H c).symm.trans (by simp only [V19, Function.update_self])

theorem hrest6 (c : Dev nD) : ∀ b, b ∉ Finset.univ.image (Pipeline.arrRef spec6) → atTc c (V19 m outs c) b = En6 m outs c b :=
  fun b hb => V19_of m outs c b fun h => hb (Finset.mem_image.mpr ⟨3, Finset.mem_univ _, by cases List.mem_singleton.mp h; rfl⟩)

theorem split6 (c : Dev nD) : (unscopedBufs c (atTc c (V18 m outs c)) : sProp 𝕄)
    ⊢ iprop((pdats m outs 6 c).arrays (fun w => (pdats m outs 6 c).arrAt w 0) ∗ Pipeline.unscopedRest (pcfgs (F := F) 6).spec c (atTc c (V18 m outs c))) := by
  rw [Pipeline.unscopedBufs_split₀ (Pipeline.pin (pcfgs (F := F)) adm) 6 winFacts₀6.arr_unscoped c (atTc c (V18 m outs c))]
  exact sep_mono (arrays6 c (pdats m outs 6 c) rfl rfl rfl _ _ (fun _ => rfl)).1 .rfl

theorem join6 (H : ∀ c, outs 19 main_v36 c = (dat6 (En6 m outs) c).arrAt 3 cfg6.N) (c : Dev nD) :
    iprop((pdats m outs 6 c).arrays (fun w => (pdats m outs 6 c).arrAt w (cfgs 6).N) ∗ Pipeline.unscopedRest (pcfgs (F := F) 6).spec c (atTc c (V18 m outs c)))
      ⊢ (unscopedBufs c (atTc c (V19 m outs c)) : sProp 𝕄) := by
  rw [Pipeline.unscopedBufs_split₀ (Pipeline.pin (pcfgs (F := F)) adm) 6 winFacts₀6.arr_unscoped c (atTc c (V19 m outs c))]
  refine sep_mono (arrays6 c (pdats m outs 6 c) rfl rfl rfl _ _ (hF6 m outs H c)).2 (Entails.of_eq ?_)
  unfold Pipeline.unscopedRest
  exact bigSep_congr fun b hb => by rw [show atTc c (V19 m outs c) b = atTc c (V18 m outs c) b from hrest6 m outs c b (Finset.mem_sdiff.mp hb).2]

end Cert.Kernel.Layers

end
-- ==== Proof.K.Frame.lean ====
import proofs.«427227_j17824114279158_3_alg».proof.Proof.K.Outs
import proofs.«427227_j17824114279158_3_alg».proof.Proof.K.Rec6

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

-- Each region as an item, entered from the contents before it and left with its output array at what the table names.
def reg0 : Pipeline.RegionSeg (pcfgs (F := F)) adm (pdats m (outs m)) () defs₀ 𝒱₀ L lv 0 :=
  regOfLaunch m (outs m) 0 launch0 (body_obligation0 (En0 m)) (V1 m) main_v4 (outs m 2 main_v4) 2 rfl
    (fun _ _ => rfl) (fun _ _ => rfl) (fun _ _ => rfl) (fun _ _ => rfl) (fun _ _ => rfl)
    (by decide) fun c => heq_of_eq (outs_H0 m c).symm

def reg1 : Pipeline.RegionSeg (pcfgs (F := F)) adm (pdats m (outs m)) () defs₀ 𝒱₀ L lv 1 :=
  regOfLaunch m (outs m) 1 launch1 (body_obligation1 (En1 m (outs m))) (V4 m (outs m)) main_v10 (outs m 5 main_v10) 3 rfl
    (fun _ _ => rfl) (fun _ _ => rfl) (fun _ _ => rfl) (fun _ _ => rfl) (fun _ _ => rfl)
    (by decide) fun c => heq_of_eq (outs_H1 m c).symm

def reg2 : Pipeline.RegionSeg (pcfgs (F := F)) adm (pdats m (outs m)) () defs₀ 𝒱₀ L lv 2 :=
  regOfLaunch m (outs m) 2 launch2 (body_obligation2 (En2 m (outs m))) (V7 m (outs m)) main_v16 (outs m 8 main_v16) 3 rfl
    (fun _ _ => rfl) (fun _ _ => rfl) (fun _ _ => rfl) (fun _ _ => rfl) (fun _ _ => rfl)
    (by decide) fun c => heq_of_eq (outs_H2 m c).symm

def reg3 : Pipeline.RegionSeg (pcfgs (F := F)) adm (pdats m (outs m)) () defs₀ 𝒱₀ L lv 3 :=
  regOfLaunch m (outs m) 3 launch3 (body_obligation3 (En3 m (outs m))) (V10 m (outs m)) main_v22 (outs m 11 main_v22) 2 rfl
    (fun _ _ => rfl) (fun _ _ => rfl) (fun _ _ => rfl) (fun _ _ => rfl) (fun _ _ => rfl)
    (by decide) fun c => heq_of_eq (outs_H3 m c).symm

def reg4 : Pipeline.RegionSeg (pcfgs (F := F)) adm (pdats m (outs m)) () defs₀ 𝒱₀ L lv 4 :=
  regOfLaunch m (outs m) 4 launch4 (body_obligation4 (En4 m (outs m))) (V13 m (outs m)) main_v28 (outs m 14 main_v28) 3 rfl
    (fun _ _ => rfl) (fun _ _ => rfl) (fun _ _ => rfl) (fun _ _ => rfl) (fun _ _ => rfl)
    (by decide) fun c => heq_of_eq (outs_H4 m c).symm

def reg5 : Pipeline.RegionSeg (pcfgs (F := F)) adm (pdats m (outs m)) () defs₀ 𝒱₀ L lv 5 :=
  regOfLaunch m (outs m) 5 launch5 (body_obligation5 (En5 m (outs m))) (V15 m (outs m)) main_v30 (outs m 16 main_v30) 3 rfl
    (fun _ _ => rfl) (fun _ _ => rfl) (fun _ _ => rfl) (fun _ _ => rfl) (fun _ _ => rfl)
    (by decide) fun c => heq_of_eq (outs_H5 m c).symm

def reg6 : Pipeline.RegionSeg (pcfgs (F := F)) adm (pdats m (outs m)) () defs₀ 𝒱₀ L lv 6 :=
  regOf m (outs m) 6 winFacts₀6 block_pos6 stage_whole6 (body_obligation6 (En6 m (outs m))) (V18 m (outs m)) (V19 m (outs m))
    (fun _ _ => rfl) (fun _ _ => rfl) (fun _ _ => rfl) (split6 m (outs m)) (join6 m (outs m) (outs_H6 m))

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m (emb₁ (sig := sig) (nD := nD) (τ := τ)) () 𝒱₀ L lv (fun _ _ => rfl) ρ (outs m) (pdats m (outs m))
    (0 : Dev nD → CellTallies nD τ sig Unit) (fun _ => iprop(emp)) u₀ hu₀ (fun _ c => R c) (hE0 ρ) (fun c => hE7 c)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

end Cert.Kernel.Layers

end
-- ==== Proof.KI.Reg0.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4096x512 := Rect.unit (s := S4096x512) ![0, 0] S4096x512.size inb_S4096x512_S4096x512_0_0
abbrev r0_1 : Rect S512x64 := Rect.unit (s := S512x64) ![0, 0] S512x64.size inb_S512x64_S512x64_0_0
abbrev r0_2 : Rect S4096x64 := Rect.unit (s := S4096x64) ![0, 0] S4096x64.size inb_S4096x64_S4096x64_0_0

def out0_2 (x0 : Vec F S4096x512 .f32) (x1 : Vec F S512x64 .f32) : Vec F S4096x64 .f32 :=
  View.canon [⟨r0_2, k0_pay1 (View.ld x0 r0_0) (View.ld x1 r0_1)⟩]

-- One store covers the whole output block: what it leaves there is the stored value, a function of the blocks read.
theorem sound_kernel0 (c : Dev nD) (E : Set ℕ) (i : grid0.Coords)
    (a0 : Memref sig .tc .vmem S4096x512 .f32) (ha0 : a0.IsWhole) (a1 : Memref sig .tc .vmem S512x64 .f32) (ha1 : a1.IsWhole) (a2 : Memref sig .tc .vmem S4096x64 .f32) (ha2 : a2.IsWhole)
    (x0 : Vec F S4096x512 .f32) (x1 : Vec F S512x64 .f32) (K : PUnit → sProp 𝕄) :
    iprop(owns c.tc a0 fullShare x0 ∗ owns c.tc a1 fullShare x1 ∗ (∃ d, owns c.tc a2 fullShare d)
        ∗ (iprop(owns c.tc a0 fullShare x0 ∗ owns c.tc a1 fullShare x1 ∗ owns c.tc a2 fullShare (out0_2 x0 x1)) -∗ K ⟨⟩))
      ⊢ wp frame (wpE (defs₀ (F := F)) Variants.none c none) E (cc0__linear_kernel i a0 ha0 a1 ha1 a2 ha2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  sl_exec
  sl_step
  iapply Hk
  isplitl [H0]; · iexists f0; iframe %hf0 H0
  isplitl [H1]; · iexists f1; iframe %hf1 H1
  iexists _; iframe H2
  ipureintro; subst hf0 hf1
  exact View.read_writes_eq_canon _ _ _ (View.cover_of_tiled _ S4096x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = (dat0 V c).after 0 t :=
  (dat0 V c).before_in_eq_fetched 0 rfl (fun _ => rfl) (fun _ _ _ => rfl) (fun _ => rfl) t d
theorem before0_1 (c : Dev nD) (t : Fin cfg0.N) (d) : (dat0 V c).before 1 t d = (dat0 V c).after 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1]
  rw [show (dat0 V c).after 2 t = out0_2 ((dat0 V c).after 0 t) ((dat0 V c).after 1 t) by dsimp only [dat0]]
  show _ ⊢ wp _ _ _ (bodyAt0 t) fun _ => iprop((dat0 V c).Φ t.castSucc ∗ (dat0 V c).owesAt () t.castSucc ∗ _)
  iintro ⟨HΦ, Ho, ⟨%_, H0⟩, ⟨%_, H1⟩, ⟨%_, H2⟩⟩
  iapply (sound_kernel0 c Set.univ _ _ _ _ _ _ _ ((dat0 V c).after 0 t) ((dat0 V c).after 1 t) _)
  iframe H0 H1
  isplitl [H2]; · iexists _; iexact H2
  iintro ⟨H0, H1, H2⟩
  iframe

end Cert.KernelIdeal.Layers

end
-- ==== Proof.KI.Reg1.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x64 := Rect.unit (s := S1024x64) ![0, 0] S1024x64.size inb_S1024x64_S1024x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0
abbrev r1_3 : Rect S1024x64 := Rect.unit (s := S1024x64) ![0, 0] S1024x64.size inb_S1024x64_S1024x64_0_0

def out1_3 (x0 : Vec F S1024x64 .f32) (x1 : Vec F S1x64 .f32) (x2 : Vec F S64x64 .f32) : Vec F S1024x64 .f32 :=
  View.canon [⟨r1_3, k1_pay1 (View.ld x0 r1_0) (View.ld x1 r1_1) (View.ld x2 r1_2)⟩]

-- One store covers the whole output block: what it leaves there is the stored value, a function of the blocks read.
theorem sound_kernel1 (c : Dev nD) (E : Set ℕ) (i : grid1.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out1_3 x0 x1 x2)) -∗ K ⟨⟩))
      ⊢ wp frame (wpE (defs₀ (F := F)) Variants.none c none) E (cc1__biasrelu_linear_kernel i a0 ha0 a1 ha1 a2 ha2 a3 ha3) K := by
  simp only [cc1__biasrelu_linear_kernel_eq_skeleton]; unfold cc1__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = (dat1 V c).after 0 t :=
  (dat1 V c).before_in_eq_fetched 0 rfl (fun _ => rfl) (fun _ _ _ => rfl) (fun _ => rfl) t d
theorem before1_1 (c : Dev nD) (t : Fin cfg1.N) (d) : (dat1 V c).before 1 t d = (dat1 V c).after 1 t :=
  (dat1 V c).before_in_eq_fetched 1 rfl (fun _ => rfl) (fun _ _ _ => rfl) (fun _ => rfl) t d
theorem before1_2 (c : Dev nD) (t : Fin cfg1.N) (d) : (dat1 V c).before 2 t d = (dat1 V c).after 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [show (dat1 V c).after 3 t = out1_3 ((dat1 V c).after 0 t) ((dat1 V c).after 1 t) ((dat1 V c).after 2 t) by dsimp only [dat1]]
  show _ ⊢ wp _ _ _ (bodyAt1 t) fun _ => iprop((dat1 V c).Φ t.castSucc ∗ (dat1 V c).owesAt () t.castSucc ∗ _)
  iintro ⟨HΦ, Ho, ⟨%_, H0⟩, ⟨%_, H1⟩, ⟨%_, H2⟩, ⟨%_, H3⟩⟩
  iapply (sound_kernel1 c Set.univ _ _ _ _ _ _ _ _ _ ((dat1 V c).after 0 t) ((dat1 V c).after 1 t) ((dat1 V c).after 2 t) _)
  iframe H0 H1 H2
  isplitl [H3]; · iexists _; iexact H3
  iintro ⟨H0, H1, H2, H3⟩
  iframe

end Cert.KernelIdeal.Layers

end
-- ==== Proof.KI.Reg2.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x64 := Rect.unit (s := S1024x64) ![0, 0] S1024x64.size inb_S1024x64_S1024x64_0_0
abbrev r2_1 : Rect S1x64 := Rect.unit (s := S1x64) ![0, 0] S1x64.size inb_S1x64_S1x64_0_0
abbrev r2_2 : Rect S64x64 := Rect.unit (s := S64x64) ![0, 0] S64x64.size inb_S64x64_S64x64_0_0
abbrev r2_3 : Rect S1024x64 := Rect.unit (s := S1024x64) ![0, 0] S1024x64.size inb_S1024x64_S1024x64_0_0

def out2_3 (x0 : Vec F S1024x64 .f32) (x1 : Vec F S1x64 .f32) (x2 : Vec F S64x64 .f32) : Vec F S1024x64 .f32 :=
  View.canon [⟨r2_3, k2_pay1 (View.ld x0 r2_0) (View.ld x1 r2_1) (View.ld x2 r2_2)⟩]

-- One store covers the whole output block: what it leaves there is the stored value, a function of the blocks read.
theorem sound_kernel2 (c : Dev nD) (E : Set ℕ) (i : grid2.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out2_3 x0 x1 x2)) -∗ K ⟨⟩))
      ⊢ wp frame (wpE (defs₀ (F := F)) Variants.none c none) E (cc2__biasrelu_linear_kernel i a0 ha0 a1 ha1 a2 ha2 a3 ha3) K := by
  simp only [cc2__biasrelu_linear_kernel_eq_skeleton]; unfold cc2__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = (dat2 V c).after 0 t :=
  (dat2 V c).before_in_eq_fetched 0 rfl (fun _ => rfl) (fun _ _ _ => rfl) (fun _ => rfl) t d
theorem before2_1 (c : Dev nD) (t : Fin cfg2.N) (d) : (dat2 V c).before 1 t d = (dat2 V c).after 1 t :=
  (dat2 V c).before_in_eq_fetched 1 rfl (fun _ => rfl) (fun _ _ _ => rfl) (fun _ => rfl) t d
theorem before2_2 (c : Dev nD) (t : Fin cfg2.N) (d) : (dat2 V c).before 2 t d = (dat2 V c).after 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2]
  rw [show (dat2 V c).after 3 t = out2_3 ((dat2 V c).after 0 t) ((dat2 V c).after 1 t) ((dat2 V c).after 2 t) by dsimp only [dat2]]
  show _ ⊢ wp _ _ _ (bodyAt2 t) fun _ => iprop((dat2 V c).Φ t.castSucc ∗ (dat2 V c).owesAt () t.castSucc ∗ _)
  iintro ⟨HΦ, Ho, ⟨%_, H0⟩, ⟨%_, H1⟩, ⟨%_, H2⟩, ⟨%_, H3⟩⟩
  iapply (sound_kernel2 c Set.univ _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Cert.KernelIdeal.Layers

end
-- ==== Proof.KI.Reg3.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1024x64 := Rect.unit (s := S1024x64) ![0, 0] S1024x64.size inb_S1024x64_S1024x64_0_0
abbrev r3_1 : Rect S1x64 := Rect.unit (s := S1x64) ![0, 0] S1x64.size inb_S1x64_S1x64_0_0
abbrev r3_2 : Rect S1024x64 := Rect.unit (s := S1024x64) ![0, 0] S1024x64.size inb_S1024x64_S1024x64_0_0

def out3_2 (x0 : Vec F S1024x64 .f32) (x1 : Vec F S1x64 .f32) : Vec F S1024x64 .f32 :=
  View.canon [⟨r3_2, k3_pay1 (View.ld x0 r3_0) (View.ld x1 r3_1)⟩]

-- One store covers the whole output block: what it leaves there is the stored value, a function of the blocks read.
theorem sound_kernel3 (c : Dev nD) (E : Set ℕ) (i : grid3.Coords)
    (a0 : Memref sig .tc .vmem S1024x64 .f32) (ha0 : a0.IsWhole) (a1 : Memref sig .tc .vmem S1x64 .f32) (ha1 : a1.IsWhole) (a2 : Memref sig .tc .vmem S1024x64 .f32) (ha2 : a2.IsWhole)
    (x0 : Vec F S1024x64 .f32) (x1 : Vec F S1x64 .f32) (K : PUnit → sProp 𝕄) :
    iprop(owns c.tc a0 fullShare x0 ∗ owns c.tc a1 fullShare x1 ∗ (∃ d, owns c.tc a2 fullShare d)
        ∗ (iprop(owns c.tc a0 fullShare x0 ∗ owns c.tc a1 fullShare x1 ∗ owns c.tc a2 fullShare (out3_2 x0 x1)) -∗ K ⟨⟩))
      ⊢ wp frame (wpE (defs₀ (F := F)) Variants.none c none) E (cc3__bias_relu_kernel i a0 ha0 a1 ha1 a2 ha2) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  sl_exec
  sl_step
  iapply Hk
  isplitl [H0]; · iexists f0; iframe %hf0 H0
  isplitl [H1]; · iexists f1; iframe %hf1 H1
  iexists _; iframe H2
  ipureintro; subst hf0 hf1
  exact View.read_writes_eq_canon _ _ _ (View.cover_of_tiled _ S1024x64.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = (dat3 V c).after 0 t :=
  (dat3 V c).before_in_eq_fetched 0 rfl (fun _ => rfl) (fun _ _ _ => rfl) (fun _ => rfl) t d
theorem before3_1 (c : Dev nD) (t : Fin cfg3.N) (d) : (dat3 V c).before 1 t d = (dat3 V c).after 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1]
  rw [show (dat3 V c).after 2 t = out3_2 ((dat3 V c).after 0 t) ((dat3 V c).after 1 t) by dsimp only [dat3]]
  show _ ⊢ wp _ _ _ (bodyAt3 t) fun _ => iprop((dat3 V c).Φ t.castSucc ∗ (dat3 V c).owesAt () t.castSucc ∗ _)
  iintro ⟨HΦ, Ho, ⟨%_, H0⟩, ⟨%_, H1⟩, ⟨%_, H2⟩⟩
  iapply (sound_kernel3 c Set.univ _ _ _ _ _ _ _ ((dat3 V c).after 0 t) ((dat3 V c).after 1 t) _)
  iframe H0 H1
  isplitl [H2]; · iexists _; iexact H2
  iintro ⟨H0, H1, H2⟩
  iframe

end Cert.KernelIdeal.Layers

end
-- ==== Proof.KI.Reg4.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4096x64 := Rect.unit (s := S4096x64) ![0, 0] S4096x64.size inb_S4096x64_S4096x64_0_0
abbrev r4_1 : Rect S64x512 := Rect.unit (s := S64x512) ![0, 0] S64x512.size inb_S64x512_S64x512_0_0
abbrev r4_2 : Rect S1x512 := Rect.unit (s := S1x512) ![0, 0] S1x512.size inb_S1x512_S1x512_0_0
abbrev r4_3 : Rect S4096x512 := Rect.unit (s := S4096x512) ![0, 0] S4096x512.size inb_S4096x512_S4096x512_0_0

def out4_3 (x0 : Vec F S4096x64 .f32) (x1 : Vec F S64x512 .f32) (x2 : Vec F S1x512 .f32) : Vec F S4096x512 .f32 :=
  View.canon [⟨r4_3, k4_pay1 (View.ld x0 r4_0) (View.ld x1 r4_1) (View.ld x2 r4_2)⟩]

-- One store covers the whole output block: what it leaves there is the stored value, a function of the blocks read.
theorem sound_kernel4 (c : Dev nD) (E : Set ℕ) (i : grid4.Coords)
    (a0 : Memref sig .tc .vmem S4096x64 .f32) (ha0 : a0.IsWhole) (a1 : Memref sig .tc .vmem S64x512 .f32) (ha1 : a1.IsWhole) (a2 : Memref sig .tc .vmem S1x512 .f32) (ha2 : a2.IsWhole) (a3 : Memref sig .tc .vmem S4096x512 .f32) (ha3 : a3.IsWhole)
    (x0 : Vec F S4096x64 .f32) (x1 : Vec F S64x512 .f32) (x2 : Vec F S1x512 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out4_3 x0 x1 x2)) -∗ K ⟨⟩))
      ⊢ wp frame (wpE (defs₀ (F := F)) Variants.none c none) E (cc4__linear_biasrelu_kernel i a0 ha0 a1 ha1 a2 ha2 a3 ha3) K := by
  simp only [cc4__linear_biasrelu_kernel_eq_skeleton]; unfold cc4__linear_biasrelu_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S4096x512.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = (dat4 V c).after 0 t :=
  (dat4 V c).before_in_eq_fetched 0 rfl (fun _ => rfl) (fun _ _ _ => rfl) (fun _ => rfl) t d
theorem before4_1 (c : Dev nD) (t : Fin cfg4.N) (d) : (dat4 V c).before 1 t d = (dat4 V c).after 1 t :=
  (dat4 V c).before_in_eq_fetched 1 rfl (fun _ => rfl) (fun _ _ _ => rfl) (fun _ => rfl) t d
theorem before4_2 (c : Dev nD) (t : Fin cfg4.N) (d) : (dat4 V c).before 2 t d = (dat4 V c).after 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [before4_0, before4_1, before4_2]
  rw [show (dat4 V c).after 3 t = out4_3 ((dat4 V c).after 0 t) ((dat4 V c).after 1 t) ((dat4 V c).after 2 t) by dsimp only [dat4]]
  show _ ⊢ wp _ _ _ (bodyAt4 t) fun _ => iprop((dat4 V c).Φ t.castSucc ∗ (dat4 V c).owesAt () t.castSucc ∗ _)
  iintro ⟨HΦ, Ho, ⟨%_, H0⟩, ⟨%_, H1⟩, ⟨%_, H2⟩, ⟨%_, H3⟩⟩
  iapply (sound_kernel4 c Set.univ _ _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Cert.KernelIdeal.Layers

end
-- ==== Proof.KI.Reg5.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1024x64 := Rect.unit (s := S1024x64) ![0, 0] S1024x64.size inb_S1024x64_S1024x64_0_0
abbrev r5_1 : Rect S1x64 := Rect.unit (s := S1x64) ![0, 0] S1x64.size inb_S1x64_S1x64_0_0
abbrev r5_2 : Rect S64x64 := Rect.unit (s := S64x64) ![0, 0] S64x64.size inb_S64x64_S64x64_0_0
abbrev r5_3 : Rect S1024x64 := Rect.unit (s := S1024x64) ![0, 0] S1024x64.size inb_S1024x64_S1024x64_0_0

def out5_3 (x0 : Vec F S1024x64 .f32) (x1 : Vec F S1x64 .f32) (x2 : Vec F S64x64 .f32) : Vec F S1024x64 .f32 :=
  View.canon [⟨r5_3, k5_pay1 (View.ld x0 r5_0) (View.ld x1 r5_1) (View.ld x2 r5_2)⟩]

-- One store covers the whole output block: what it leaves there is the stored value, a function of the blocks read.
theorem sound_kernel5 (c : Dev nD) (E : Set ℕ) (i : grid5.Coords)
    (a0 : Memref sig .tc .vmem S1024x64 .f32) (ha0 : a0.IsWhole) (a1 : Memref sig .tc .vmem S1x64 .f32) (ha1 : a1.IsWhole) (a2 : Memref sig .tc .vmem S64x64 .f32) (ha2 : a2.IsWhole) (a3 : Memref sig .tc .vmem S1024x64 .f32) (ha3 : a3.IsWhole)
    (x0 : Vec F S1024x64 .f32) (x1 : Vec F S1x64 .f32) (x2 : Vec F S64x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out5_3 x0 x1 x2)) -∗ K ⟨⟩))
      ⊢ wp frame (wpE (defs₀ (F := F)) Variants.none c none) E (cc5__biasrelu_linear_kernel i a0 ha0 a1 ha1 a2 ha2 a3 ha3) K := by
  simp only [cc5__biasrelu_linear_kernel_eq_skeleton]; unfold cc5__biasrelu_linear_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S1024x64.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = (dat5 V c).after 0 t :=
  (dat5 V c).before_in_eq_fetched 0 rfl (fun _ => rfl) (fun _ _ _ => rfl) (fun _ => rfl) t d
theorem before5_1 (c : Dev nD) (t : Fin cfg5.N) (d) : (dat5 V c).before 1 t d = (dat5 V c).after 1 t :=
  (dat5 V c).before_in_eq_fetched 1 rfl (fun _ => rfl) (fun _ _ _ => rfl) (fun _ => rfl) t d
theorem before5_2 (c : Dev nD) (t : Fin cfg5.N) (d) : (dat5 V c).before 2 t d = (dat5 V c).after 2 t :=
  (dat5 V c).before_in_eq_fetched 2 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2]
  rw [show (dat5 V c).after 3 t = out5_3 ((dat5 V c).after 0 t) ((dat5 V c).after 1 t) ((dat5 V c).after 2 t) by dsimp only [dat5]]
  show _ ⊢ wp _ _ _ (bodyAt5 t) fun _ => iprop((dat5 V c).Φ t.castSucc ∗ (dat5 V c).owesAt () t.castSucc ∗ _)
  iintro ⟨HΦ, Ho, ⟨%_, H0⟩, ⟨%_, H1⟩, ⟨%_, H2⟩, ⟨%_, H3⟩⟩
  iapply (sound_kernel5 c Set.univ _ _ _ _ _ _ _ _ _ ((dat5 V c).after 0 t) ((dat5 V c).after 1 t) ((dat5 V c).after 2 t) _)
  iframe H0 H1 H2
  isplitl [H3]; · iexists _; iexact H3
  iintro ⟨H0, H1, H2, H3⟩
  iframe

end Cert.KernelIdeal.Layers

end
-- ==== Proof.KI.Reg6.lean ====
import proofs.«427227_j17824114279158_3_alg».proof.Proof.Gen.KernelIdeal.Launch
import proofs.«427227_j17824114279158_3_alg».proof.Proof.Gen.KernelIdeal.Skeleton
import proofs.«427227_j17824114279158_3_alg».proof.Proof.Gen.KernelIdeal.Points
import Idealize.ShloMosaic.Lib.Pipeline.FrameBody
import Idealize.ShloMosaic.Lib.Ring

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2048x64 := Rect.unit (s := S2048x64) ![0, 0] S2048x64.size inb_S2048x64_S2048x64_0_0
abbrev r6_1 : Rect S1024x64 := Rect.unit (s := S1024x64) ![0, 0] S1024x64.size inb_S1024x64_S1024x64_0_0
abbrev r6_2 : Rect S1x64 := Rect.unit (s := S1x64) ![0, 0] S1x64.size inb_S1x64_S1x64_0_0
abbrev r6_3 : Rect S2048x1024 := Rect.unit (s := S2048x1024) ![0, 0] S2048x1024.size inb_S2048x1024_S2048x1024_0_0

def out6_3 (x0 : Vec F S2048x64 .f32) (x1 : Vec F S1024x64 .f32) (x2 : Vec F S1x64 .f32) : Vec F S2048x1024 .f32 :=
  View.canon [⟨r6_3, k6_pay1 (View.ld x2 r6_2) (View.ld x0 r6_0) (View.ld x1 r6_1)⟩]

-- One store covers the whole output block: what it leaves there is the stored value, a function of the blocks read.
theorem sound_kernel6 (c : Dev nD) (E : Set ℕ) (i : grid6.Coords)
    (a0 : Memref sig .tc .vmem S2048x64 .f32) (ha0 : a0.IsWhole) (a1 : Memref sig .tc .vmem S1024x64 .f32) (ha1 : a1.IsWhole) (a2 : Memref sig .tc .vmem S1x64 .f32) (ha2 : a2.IsWhole) (a3 : Memref sig .tc .vmem S2048x1024 .f32) (ha3 : a3.IsWhole)
    (x0 : Vec F S2048x64 .f32) (x1 : Vec F S1024x64 .f32) (x2 : Vec F S1x64 .f32) (K : PUnit → sProp 𝕄) :
    iprop(owns c.tc a0 fullShare x0 ∗ owns c.tc a1 fullShare x1 ∗ owns c.tc a2 fullShare x2 ∗ (∃ d, owns c.tc a3 fullShare d)
        ∗ (iprop(owns c.tc a0 fullShare x0 ∗ owns c.tc a1 fullShare x1 ∗ owns c.tc a2 fullShare x2 ∗ owns c.tc a3 fullShare (out6_3 x0 x1 x2)) -∗ K ⟨⟩))
      ⊢ wp frame (wpE (defs₀ (F := F)) Variants.none c none) E (cc6__outer_product_kernel i a0 ha0 a1 ha1 a2 ha2 a3 ha3) K := by
  simp only [cc6__outer_product_kernel_eq_skeleton]; unfold cc6__outer_product_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]; · iexists f0; iframe %hf0 H0
  isplitl [H1]; · iexists f1; iframe %hf1 H1
  isplitl [H2]; · iexists f2; iframe %hf2 H2
  iexists _; iframe H3
  ipureintro; subst hf0 hf1 hf2
  exact View.read_writes_eq_canon _ _ _ (View.cover_of_tiled _ S2048x1024.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q w := match w with
    | ⟨0, _⟩ => fullShare.left
    | ⟨1, _⟩ => fullShare.right
    | ⟨2, _⟩ => fullShare
    | ⟨3, _⟩ => fullShare
  owed _ := 0

theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = (dat6 V c).after 0 t :=
  (dat6 V c).before_in_eq_fetched 0 rfl (fun _ => rfl) (fun _ _ _ => rfl) (fun _ => rfl) t d
theorem before6_1 (c : Dev nD) (t : Fin cfg6.N) (d) : (dat6 V c).before 1 t d = (dat6 V c).after 1 t :=
  (dat6 V c).before_in_eq_fetched 1 rfl (fun _ => rfl) (fun _ _ _ => rfl) (fun _ => rfl) t d
theorem before6_2 (c : Dev nD) (t : Fin cfg6.N) (d) : (dat6 V c).before 2 t d = (dat6 V c).after 2 t :=
  (dat6 V c).before_in_eq_fetched 2 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp only [before6_0, before6_1, before6_2]
  rw [show (dat6 V c).after 3 t = out6_3 ((dat6 V c).after 0 t) ((dat6 V c).after 1 t) ((dat6 V c).after 2 t) by dsimp only [dat6]]
  show _ ⊢ wp _ _ _ (bodyAt6 t) fun _ => iprop((dat6 V c).Φ t.castSucc ∗ (dat6 V c).owesAt () t.castSucc ∗ _)
  iintro ⟨HΦ, Ho, ⟨%_, H0⟩, ⟨%_, H1⟩, ⟨%_, H2⟩, ⟨%_, H3⟩⟩
  iapply (sound_kernel6 c Set.univ _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe

end Cert.KernelIdeal.Layers

end
-- ==== Proof.KI.Data.lean ====
import proofs.«427227_j17824114279158_3_alg».proof.Proof.Gen.KernelIdeal.Regions
import proofs.«427227_j17824114279158_3_alg».proof.Proof.KI.Reg0
import proofs.«427227_j17824114279158_3_alg».proof.Proof.KI.Reg1
import proofs.«427227_j17824114279158_3_alg».proof.Proof.KI.Reg2
import proofs.«427227_j17824114279158_3_alg».proof.Proof.KI.Reg3
import proofs.«427227_j17824114279158_3_alg».proof.Proof.KI.Reg4
import proofs.«427227_j17824114279158_3_alg».proof.Proof.KI.Reg5
import proofs.«427227_j17824114279158_3_alg».proof.Proof.KI.Reg6
import Idealize.ShloMosaic.Lib.Pipeline.Kit

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev En0 : (c : Dev nD) → (b : Ref sig .tc) → Buf (Elt F) ((c : Thread nD τ).loc b) := fun c b => V1 m c b
abbrev En1 : (c : Dev nD) → (b : Ref sig .tc) → Buf (Elt F) ((c : Thread nD τ).loc b) := fun c b => V4 m outs c b
abbrev En2 : (c : Dev nD) → (b : Ref sig .tc) → Buf (Elt F) ((c : Thread nD τ).loc b) := fun c b => V7 m outs c b
abbrev En3 : (c : Dev nD) → (b : Ref sig .tc) → Buf (Elt F) ((c : Thread nD τ).loc b) := fun c b => V10 m outs c b
abbrev En4 : (c : Dev nD) → (b : Ref sig .tc) → Buf (Elt F) ((c : Thread nD τ).loc b) := fun c b => V13 m outs c b
abbrev En5 : (c : Dev nD) → (b : Ref sig .tc) → Buf (Elt F) ((c : Thread nD τ).loc b) := fun c b => V15 m outs c b
abbrev En6 : (c : Dev nD) → (b : Ref sig .tc) → Buf (Elt F) ((c : Thread nD τ).loc b) := fun c b => V18 m outs c b

def pdats : (p : Fin 7) → (c : Dev nD) → Dat τ (Elt F) Unit ℕ (UR sig nD τ) ℕ (cfgs p) c
  | ⟨0, _⟩ => fun c => dat0 (En0 m) c
  | ⟨1, _⟩ => fun c => dat1 (En1 m outs) c
  | ⟨2, _⟩ => fun c => dat2 (En2 m outs) c
  | ⟨3, _⟩ => fun c => dat3 (En3 m outs) c
  | ⟨4, _⟩ => fun c => dat4 (En4 m outs) c
  | ⟨5, _⟩ => fun c => dat5 (En5 m outs) c
  | ⟨6, _⟩ => fun c => dat6 (En6 m outs) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Layers

end
-- ==== Proof.KI.Outs.lean ====
import proofs.«427227_j17824114279158_3_alg».proof.Proof.KI.Data

noncomputable section

namespace Cert.KernelIdeal.Layers

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

def setAt (o : Outs (F := F)) (J₀ : ℕ) (r₀ : Ref sig .tc) (v : (c : Dev nD) → Buf (Elt F) ((c : Thread nD τ).loc r₀)) : Outs (F := F) :=
  fun J r c => if J = J₀ then (if h : r = r₀ then h ▸ v c else o J r c) else o J r c

variable (o : Outs (F := F)) (J₀ : ℕ) (r₀ : Ref sig .tc) (v : (c : Dev nD) → Buf (Elt F) ((c : Thread nD τ).loc r₀))

theorem setAt_ne {J : ℕ} (h : J ≠ J₀) (r : Ref sig .tc) (c : Dev nD) : setAt o J₀ r₀ v J r c = o J r c := by
  unfold setAt; rw [if_neg h]
theorem setAt_self (c : Dev nD) : setAt o J₀ r₀ v J₀ r₀ c = v c := by
  unfold setAt; rw [if_pos rfl, dif_pos rfl]

-- Two tables agree up to item n.
def Agree (n : ℕ) (o o' : Outs (F := F)) : Prop := ∀ J ≤ n, ∀ r c, o J r c = o' J r c

theorem agree_setAt {n : ℕ} (h : n < J₀) : Agree n (setAt o J₀ r₀ v) o := fun J hJ r c => setAt_ne o J₀ r₀ v (by omega) r c

section
variable {m} {o o' o'' : Outs (F := F)} {n n' : ℕ}

theorem Agree.trans (h : Agree n o o') (h' : Agree n o' o'') : Agree n o o'' := fun J hJ r c => (h J hJ r c).trans (h' J hJ r c)
theorem Agree.mono (h : Agree n o o') (hn : n' ≤ n) : Agree n' o o' := fun J hJ => h J (hJ.trans hn)

-- The contents before a region read the table only at the earlier regions' items.
theorem V4_congr (h : Agree 2 o o') (c : Dev nD) : V4 m o c = V4 m o' c := by
  unfold V4 V3 V2; rw [h 2 le_rfl]
theorem V7_congr (h : Agree 5 o o') (c : Dev nD) : V7 m o c = V7 m o' c := by
  unfold V7 V6 V5; rw [V4_congr (h.mono (by decide)) c, h 5 le_rfl]
theorem V10_congr (h : Agree 8 o o') (c : Dev nD) : V10 m o c = V10 m o' c := by
  unfold V10 V9 V8; rw [V7_congr (h.mono (by decide)) c, h 8 le_rfl]
theorem V13_congr (h : Agree 11 o o') (c : Dev nD) : V13 m o c = V13 m o' c := by
  unfold V13 V12 V11; rw [V10_congr (h.mono (by decide)) c, h 11 le_rfl]
theorem V15_congr (h : Agree 14 o o') (c : Dev nD) : V15 m o c = V15 m o' c := by
  unfold V15 V14; rw [V13_congr (h.mono (by decide)) c, h 14 le_rfl]
theorem V18_congr (h : Agree 16 o o') (c : Dev nD) : V18 m o c = V18 m o' c := by
  unfold V18 V17 V16; rw [V15_congr (h.mono (by decide)) c, h 16 le_rfl]

end

-- Each region's output, from the contents it is entered with, which depend only on the outputs before it.
def outs0 : Outs (F := F) := setAt (fun _ r c => m ((c : Thread nD τ).loc r)) 2 main_v4 fun c => (dat0 (En0 m) c).arrAt 2 cfg0.N
def outs1 : Outs (F := F) := setAt (outs0 m) 5 main_v10 fun c => (dat1 (En1 m (outs0 m)) c).arrAt 3 cfg1.N
def outs2 : Outs (F := F) := setAt (outs1 m) 8 main_v16 fun c => (dat2 (En2 m (outs1 m)) c).arrAt 3 cfg2.N
def outs3 : Outs (F := F) := setAt (outs2 m) 11 main_v22 fun c => (dat3 (En3 m (outs2 m)) c).arrAt 2 cfg3.N
def outs4 : Outs (F := F) := setAt (outs3 m) 14 main_v28 fun c => (dat4 (En4 m (outs3 m)) c).arrAt 3 cfg4.N
def outs5 : Outs (F := F) := setAt (outs4 m) 16 main_v30 fun c => (dat5 (En5 m (outs4 m)) c).arrAt 3 cfg5.N
def outs6 : Outs (F := F) := setAt (outs5 m) 19 main_v36 fun c => (dat6 (En6 m (outs5 m)) c).arrAt 3 cfg6.N

abbrev outs : Outs (F := F) := outs6 m

theorem agree5 : Agree 16 (outs m) (outs5 m) := agree_setAt _ _ _ _ (by decide)
theorem agree4 : Agree 14 (outs m) (outs4 m) := ((agree5 m).mono (by decide)).trans (agree_setAt _ _ _ _ (by decide))
theorem agree3 : Agree 11 (outs m) (outs3 m) := ((agree4 m).mono (by decide)).trans (agree_setAt _ _ _ _ (by decide))
theorem agree2 : Agree 8 (outs m) (outs2 m) := ((agree3 m).mono (by decide)).trans (agree_setAt _ _ _ _ (by decide))
theorem agree1 : Agree 5 (outs m) (outs1 m) := ((agree2 m).mono (by decide)).trans (agree_setAt _ _ _ _ (by decide))
theorem agree0 : Agree 2 (outs m) (outs0 m) := ((agree1 m).mono (by decide)).trans (agree_setAt _ _ _ _ (by decide))

-- The table names each region's output at the contents the region is entered with.
theorem outs_H0 (c : Dev nD) : outs m 2 main_v4 c = (dat0 (En0 m) c).arrAt 2 cfg0.N :=
  (agree0 m 2 le_rfl _ c).trans (setAt_self ..)
theorem outs_H1 (c : Dev nD) : outs m 5 main_v10 c = (dat1 (En1 m (outs m)) c).arrAt 3 cfg1.N := by
  rw [show En1 m (outs m) = En1 m (outs0 m) from funext fun c => funext fun b => congrFun (V4_congr (agree0 m) c) b]
  exact (agree1 m 5 le_rfl _ c).trans (setAt_self ..)
theorem outs_H2 (c : Dev nD) : outs m 8 main_v16 c = (dat2 (En2 m (outs m)) c).arrAt 3 cfg2.N := by
  rw [show En2 m (outs m) = En2 m (outs1 m) from funext fun c => funext fun b => congrFun (V7_congr (agree1 m) c) b]
  exact (agree2 m 8 le_rfl _ c).trans (setAt_self ..)
theorem outs_H3 (c : Dev nD) : outs m 11 main_v22 c = (dat3 (En3 m (outs m)) c).arrAt 2 cfg3.N := by
  rw [show En3 m (outs m) = En3 m (outs2 m) from funext fun c => funext fun b => congrFun (V10_congr (agree2 m) c) b]
  exact (agree3 m 11 le_rfl _ c).trans (setAt_self ..)
theorem outs_H4 (c : Dev nD) : outs m 14 main_v28 c = (dat4 (En4 m (outs m)) c).arrAt 3 cfg4.N := by
  rw [show En4 m (outs m) = En4 m (outs3 m) from funext fun c => funext fun b => congrFun (V13_congr (agree3 m) c) b]
  exact (agree4 m 14 le_rfl _ c).trans (setAt_self ..)
theorem outs_H5 (c : Dev nD) : outs m 16 main_v30 c = (dat5 (En5 m (outs m)) c).arrAt 3 cfg5.N := by
  rw [show En5 m (outs m) = En5 m (outs4 m) from funext fun c => funext fun b => congrFun (V15_congr (agree4 m) c) b]
  exact (agree5 m 16 le_rfl _ c).trans (setAt_self ..)
theorem outs_H6 (c : Dev nD) : outs m 19 main_v36 c = (dat6 (En6 m (outs m)) c).arrAt 3 cfg6.N := by
  rw [show En6 m (outs m) = En6 m (outs5 m) from funext fun c => funext fun b => congrFun (V18_congr (agree5 m) c) b]
  exact setAt_self ..

end Cert.KernelIdeal.Layers

end
-- ==== Proof.KI.Item.lean ====
import proofs.«427227_j17824114279158_3_alg».proof.Proof.KI.Data
import Idealize.ShloMosaic.Lib.Pipeline.RegionsLoop

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev atTc (c : Dev nD) (V : Valuation τ sig (Elt F)) : (b : Ref sig .tc) → Buf (Elt F) ((c : Thread nD τ).loc b) := fun b => V b

section Item

set_option backward.isDefEq.respectTransparency.types false in
-- One region as a step of the program: the buffers' contents Vin before it become Vout after it.
def regOf (p : Fin 7) (win : Pipeline.WinFacts₀ (pcfgs (F := F) p).spec)
    (block_pos : ∀ w : Fin (pcfgs (F := F) p).W, 0 < ((pcfgs (F := F) p).spec w).block.numel)
    (stage_whole : ∀ (w : Fin (pcfgs (F := F) p).W) (s : Fin ((pcfgs (F := F) p).spec w).nbuf), (((pcfgs (F := F) p).spec w).stage s).IsWhole)
    (hbody : ∀ c, BodyObligation (pdats m outs p c) (defs₀ (F := F)) Variants.none () Set.univ)
    (Vin Vout : (c : Dev nD) → Valuation τ sig (Elt F))
    (hΦ : ∀ c t, (pdats m outs p c).Φ t = Pipeline.ΦA (pcfgs (F := F) p).spec c)
    (howed : ∀ c t, (pdats m outs p c).owed t = 0) (hrec : ∀ c t, (pdats m outs p c).recorded t = Set.univ)
    (hsplit : ∀ c, (unscopedBufs c (atTc c (Vin c)) : sProp 𝕄)
      ⊢ iprop((pdats m outs p c).arrays (fun w => (pdats m outs p c).arrAt w 0) ∗ Pipeline.unscopedRest (pcfgs (F := F) p).spec c (atTc c (Vin c))))
    (hjoin : ∀ c, iprop((pdats m outs p c).arrays (fun w => (pdats m outs p c).arrAt w (cfgs p).N) ∗ Pipeline.unscopedRest (pcfgs (F := F) p).spec c (atTc c (Vin c)))
      ⊢ (unscopedBufs c (atTc c (Vout c)) : sProp 𝕄)) :
    Pipeline.RegionSeg (pcfgs (F := F)) adm (pdats m outs) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc c (Vin c))
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin; rw [howed c _]
    icases HO with ⟨%W, -, HO⟩; iexists W; iexact HO

end Item

section Launch

variable (p : Fin 7) (lf : Pipeline.LaunchFacts (nD := nD) (τ := τ) cfgs p)
  (hbody : ∀ c, BodyObligation (pdats m outs p c) (defs₀ (F := F)) Variants.none () Set.univ)
  (Vin : (c : Dev nD) → Valuation τ sig (Elt F)) (oref : Ref sig .tc) (o : (c : Dev nD) → Buf (Elt F) ((c : Thread nD τ).loc oref))
  (wo : Fin (cfgs p).W) (hwo : Pipeline.arrRef (cfgs p).spec wo = oref)
  (hΦ : ∀ c t, (pdats m outs p c).Φ t = Pipeline.ΦA (pcfgs (F := F) p).spec c)
  (howed : ∀ c t, (pdats m outs p c).owed t = 0) (hrec : ∀ c t, (pdats m outs p c).recorded t = Set.univ)
  (hq : ∀ c w, (pdats m outs p c).q w = fullShare)
  (hA : ∀ c w, (pdats m outs p c).A w = Vin c (Pipeline.arrRef (cfgs p).spec w))
  (hin : ∀ w, w ≠ wo → ((cfgs p).win w).isOut = false ∧ Pipeline.arrRef (cfgs p).spec w ≠ oref)
  (hout : ∀ c, HEq ((pdats m outs p c).arrAt wo (cfgs p).N) (o c))

include lf hq hA in
theorem split_of_launch (c : Dev nD) : (unscopedBufs c (atTc c (Vin c)) : sProp 𝕄)
    ⊢ iprop((pdats m outs p c).arrays (fun w => (pdats m outs p c).arrAt w 0) ∗ Pipeline.unscopedRest (pcfgs (F := F) p).spec c (atTc c (Vin c))) :=
  Pipeline.arrays_of_unscopedBufs (p := p) (pcfgs (F := F)) adm (pdats m outs) lf.win lf.arr_whole c
    ((pdats m outs p c).share_full (hq c)) (atTc c (Vin c)) (hA c)

include lf hq hA hin hout hwo in
theorem join_of_launch (c : Dev nD) : iprop((pdats m outs p c).arrays (fun w => (pdats m outs p c).arrAt w (cfgs p).N) ∗ Pipeline.unscopedRest (pcfgs (F := F) p).spec c (atTc c (Vin c)))
    ⊢ (unscopedBufs c (atTc c (Function.update (Vin c) oref (o c))) : sProp 𝕄) :=
  Pipeline.unscopedBufs_of_arrays (p := p) (pcfgs (F := F)) adm (Ix := Unit) (Name := ℕ) (U := UR sig nD τ) (Lvl := ℕ)
    lf.win lf.arr_whole c (pdats m outs) ((pdats m outs p c).share_full (hq c)) (atTc c (Vin c))
    (atTc c (Function.update (Vin c) oref (o c))) (fun w => (pdats m outs p c).arrAt w (cfgs p).N)
    (fun w => if h : w = wo then by subst h hwo; exact (eq_of_heq (hout c)).trans (Function.update_self (Proc.devRef .tc (Pipeline.arrRef (cfgs p).spec w) : DevRef τ sig) (o c) (Vin c)).symm else ((pdats m outs p c).arrAt_in w (hin w h).1 _).trans
      ((hA c w).trans (Function.update_of_ne (StableHlo.devRef_ne_of_ne (hin w h).2) _ _).symm))
    fun b hb => Function.update_of_ne (StableHlo.devRef_ne_of_ne fun h => hb (Finset.mem_image.mpr ⟨wo, Finset.mem_univ _, hwo.trans h.symm⟩)) _ _

-- The case of a region over distinct arrays that changes one of them, oref, to o.
def regOfLaunch : Pipeline.RegionSeg (pcfgs (F := F)) adm (pdats m outs) () defs₀ 𝒱₀ L lv p :=
  regOf m outs p lf.win.to₀ lf.block_pos lf.stage_whole hbody Vin (fun c => Function.update (Vin c) oref (o c)) hΦ howed hrec
    (split_of_launch m outs p lf Vin hq hA) (join_of_launch m outs p lf Vin oref o wo hwo hq hA hin hout)

end Launch

end Cert.KernelIdeal.Layers

end
-- ==== Proof.KI.Rec6.lean ====
import proofs.«427227_j17824114279158_3_alg».proof.Proof.KI.Item
import Idealize.ShloMosaic.Rules.PointsTo

noncomputable section

namespace Cert.KernelIdeal.Layers

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)

variable {F : FTy → Type} [FloatOps F]

local notation "𝕄" => MT nD τ sig Unit (Elt F) ℕ (UR sig nD τ) ℕ

-- Two of the four windows read one and the same array, each with half of it; the other two arrays are each behind one window.
theorem arrays6 (c : Dev nD) (D : Dat τ (Elt F) Unit ℕ (UR sig nD τ) ℕ cfg6 c)
    (hq0 : D.q 0 = fullShare.left) (hq1 : D.q 1 = fullShare.right) (hq2 : D.q 2 = fullShare)
    (V : (b : Ref sig .tc) → Buf (Elt F) ((c : Thread nD τ).loc b))
    (Fw : (w : Fin cfg6.W) → Buf (Elt F) ((cfg6.win w).arr.view.loc (c : Thread nD τ))) (hF : ∀ w, Fw w = V (Pipeline.arrRef spec6 w)) :
    (Pipeline.arrBufs spec6 c V : sProp 𝕄) ⊣⊢ D.arrays Fw := by
  unfold Pipeline.arrBufs Dat.arrays Dat.share
  have e (w : Fin cfg6.W) : (cfg6.win w).arr.view.set = Finset.univ := (arr_whole6 w).set_eq_univ
  rw [show Finset.univ.image (Pipeline.arrRef spec6) = ({main_v34, main_v35, main_v36} : Finset (Ref sig .tc)) by decide,
    bigSep_insert (by decide), bigSep_insert (by decide), bigSep_singleton, bigSep_W6, e 0, e 2, e 3,
    if_neg (by decide), if_neg (by decide), if_neg (by decide), if_pos (by decide), hq0, hq1, hq2, hF 0, hF 1, hF 2, hF 3]
  exact (sep_congr_left (pointsTo_share (PosShare.mem_left_op_right fullShare))).trans sep_assoc

variable (m : (ℓ : Loc nD τ sig) → Buf (Elt F) ℓ) (outs : Outs (F := F))

theorem hF6 (H : ∀ c, outs 19 main_v36 c = (dat6 (En6 m outs) c).arrAt 3 cfg6.N) (c : Dev nD) (w : Fin cfg6.W) :
    (dat6 (En6 m outs) c).arrAt w cfg6.N = atTc c (V19 m outs c) (Pipeline.arrRef spec6 w) :=
  match w with
  | ⟨0, _⟩ | ⟨1, _⟩ => ((dat6 (En6 m outs) c).arrAt_in _ rfl _).trans (V19_of m outs c main_v34 (by decide)).symm
  | ⟨2, _⟩ => ((dat6 (En6 m outs) c).arrAt_in 2 rfl _).trans (V19_of m outs c main_v35 (by decide)).symm
  | ⟨3, _⟩ => (H c).symm.trans (by simp only [V19, Function.update_self])

theorem hrest6 (c : Dev nD) : ∀ b, b ∉ Finset.univ.image (Pipeline.arrRef spec6) → atTc c (V19 m outs c) b = En6 m outs c b :=
  fun b hb => V19_of m outs c b fun h => hb (Finset.mem_image.mpr ⟨3, Finset.mem_univ _, by cases List.mem_singleton.mp h; rfl⟩)

theorem split6 (c : Dev nD) : (unscopedBufs c (atTc c (V18 m outs c)) : sProp 𝕄)
    ⊢ iprop((pdats m outs 6 c).arrays (fun w => (pdats m outs 6 c).arrAt w 0) ∗ Pipeline.unscopedRest (pcfgs (F := F) 6).spec c (atTc c (V18 m outs c))) := by
  rw [Pipeline.unscopedBufs_split₀ (Pipeline.pin (pcfgs (F := F)) adm) 6 winFacts₀6.arr_unscoped c (atTc c (V18 m outs c))]
  exact sep_mono (arrays6 c (pdats m outs 6 c) rfl rfl rfl _ _ (fun _ => rfl)).1 .rfl

theorem join6 (H : ∀ c, outs 19 main_v36 c = (dat6 (En6 m outs) c).arrAt 3 cfg6.N) (c : Dev nD) :
    iprop((pdats m outs 6 c).arrays (fun w => (pdats m outs 6 c).arrAt w (cfgs 6).N) ∗ Pipeline.unscopedRest (pcfgs (F := F) 6).spec c (atTc c (V18 m outs c)))
      ⊢ (unscopedBufs c (atTc c (V19 m outs c)) : sProp 𝕄) := by
  rw [Pipeline.unscopedBufs_split₀ (Pipeline.pin (pcfgs (F := F)) adm) 6 winFacts₀6.arr_unscoped c (atTc c (V19 m outs c))]
  refine sep_mono (arrays6 c (pdats m outs 6 c) rfl rfl rfl _ _ (hF6 m outs H c)).2 (Entails.of_eq ?_)
  unfold Pipeline.unscopedRest
  exact bigSep_congr fun b hb => by rw [show atTc c (V19 m outs c) b = atTc c (V18 m outs c) b from hrest6 m outs c b (Finset.mem_sdiff.mp hb).2]

end Cert.KernelIdeal.Layers

end
-- ==== Proof.KI.Frame.lean ====
import proofs.«427227_j17824114279158_3_alg».proof.Proof.KI.Outs
import proofs.«427227_j17824114279158_3_alg».proof.Proof.KI.Rec6

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : R (F := F) c ⊢ (iprop(∃ W, owes (c : Thread nD τ) (0 : CellTallies nD τ sig Unit) W) : sProp 𝕄) := by
  iintro ⟨-, HO⟩; iexact HO

-- Each region as an item, entered from the contents before it and left with its output array at what the table names.
def reg0 : Pipeline.RegionSeg (pcfgs (F := F)) adm (pdats m (outs m)) () defs₀ 𝒱₀ L lv 0 :=
  regOfLaunch m (outs m) 0 launch0 (body_obligation0 (En0 m)) (V1 m) main_v4 (outs m 2 main_v4) 2 rfl
    (fun _ _ => rfl) (fun _ _ => rfl) (fun _ _ => rfl) (fun _ _ => rfl) (fun _ _ => rfl)
    (by decide) fun c => heq_of_eq (outs_H0 m c).symm

def reg1 : Pipeline.RegionSeg (pcfgs (F := F)) adm (pdats m (outs m)) () defs₀ 𝒱₀ L lv 1 :=
  regOfLaunch m (outs m) 1 launch1 (body_obligation1 (En1 m (outs m))) (V4 m (outs m)) main_v10 (outs m 5 main_v10) 3 rfl
    (fun _ _ => rfl) (fun _ _ => rfl) (fun _ _ => rfl) (fun _ _ => rfl) (fun _ _ => rfl)
    (by decide) fun c => heq_of_eq (outs_H1 m c).symm

def reg2 : Pipeline.RegionSeg (pcfgs (F := F)) adm (pdats m (outs m)) () defs₀ 𝒱₀ L lv 2 :=
  regOfLaunch m (outs m) 2 launch2 (body_obligation2 (En2 m (outs m))) (V7 m (outs m)) main_v16 (outs m 8 main_v16) 3 rfl
    (fun _ _ => rfl) (fun _ _ => rfl) (fun _ _ => rfl) (fun _ _ => rfl) (fun _ _ => rfl)
    (by decide) fun c => heq_of_eq (outs_H2 m c).symm

def reg3 : Pipeline.RegionSeg (pcfgs (F := F)) adm (pdats m (outs m)) () defs₀ 𝒱₀ L lv 3 :=
  regOfLaunch m (outs m) 3 launch3 (body_obligation3 (En3 m (outs m))) (V10 m (outs m)) main_v22 (outs m 11 main_v22) 2 rfl
    (fun _ _ => rfl) (fun _ _ => rfl) (fun _ _ => rfl) (fun _ _ => rfl) (fun _ _ => rfl)
    (by decide) fun c => heq_of_eq (outs_H3 m c).symm

def reg4 : Pipeline.RegionSeg (pcfgs (F := F)) adm (pdats m (outs m)) () defs₀ 𝒱₀ L lv 4 :=
  regOfLaunch m (outs m) 4 launch4 (body_obligation4 (En4 m (outs m))) (V13 m (outs m)) main_v28 (outs m 14 main_v28) 3 rfl
    (fun _ _ => rfl) (fun _ _ => rfl) (fun _ _ => rfl) (fun _ _ => rfl) (fun _ _ => rfl)
    (by decide) fun c => heq_of_eq (outs_H4 m c).symm

def reg5 : Pipeline.RegionSeg (pcfgs (F := F)) adm (pdats m (outs m)) () defs₀ 𝒱₀ L lv 5 :=
  regOfLaunch m (outs m) 5 launch5 (body_obligation5 (En5 m (outs m))) (V15 m (outs m)) main_v30 (outs m 16 main_v30) 3 rfl
    (fun _ _ => rfl) (fun _ _ => rfl) (fun _ _ => rfl) (fun _ _ => rfl) (fun _ _ => rfl)
    (by decide) fun c => heq_of_eq (outs_H5 m c).symm

def reg6 : Pipeline.RegionSeg (pcfgs (F := F)) adm (pdats m (outs m)) () defs₀ 𝒱₀ L lv 6 :=
  regOf m (outs m) 6 winFacts₀6 block_pos6 stage_whole6 (body_obligation6 (En6 m (outs m))) (V18 m (outs m)) (V19 m (outs m))
    (fun _ _ => rfl) (fun _ _ => rfl) (fun _ _ => rfl) (split6 m (outs m)) (join6 m (outs m) (outs_H6 m))

end Cert.KernelIdeal.Layers

end
-- ==== Proof.KI.Run.lean ====
import proofs.«427227_j17824114279158_3_alg».proof.Proof.KI.Frame

noncomputable section

namespace Cert.KernelIdeal.Layers

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mainSegs := segs m (outs m) 𝒱₀ L lv (fun _ c => R c) () (pdats m (outs m)) (reg0 m) (reg1 m) (reg2 m) (reg3 m) (reg4 m) (reg5 m) (reg6 m)

set_option backward.isDefEq.respectTransparency.types false in
theorem run_values : θ_run defs (onTc (τ := τ) (main (F := F))) ⟨m, fun _ => 0, ρ⟩ (fun r => ∀ c : Dev nD,
      r.2.mem ((c.tc : Thread nD τ).loc main_v36) = V19 m (outs m) c main_v36
      ∧ r.2.mem ((c.tc : Thread nD τ).loc main_v28) = V19 m (outs m) c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m (outs m)) () cellOf_inj (emb₁ (sig := sig) (nD := nD) (τ := τ)) defs₀ 𝒱₀ L lv m ρ main
    (mainSegs m)
    (fun c Q => by
      rewrite [show Seg.run (mainSegs m c) = main c from (Seg.run_eq_chain _).trans ((congrArg Pipeline.chain rfl).trans (main_chain c).symm)]
      exact .rfl)
    (fun c => by simp only [segs, Seg.pipes_host, Seg.pipes_region, Seg.pipes_nil]; decide) (0 : Dev nD → CellTallies nD τ sig Unit) (fun _ _ => rfl) (fun _ => iprop(emp)) u₀ hu₀
    (T₀ := fun c => iprop(unscopedBufs c (fun b => m ((c.tc : Thread nD τ).loc b)) ∗ R c))
    (Tₙ := fun c => StableHlo.held (c : Thread nD τ) (Pipeline.ucRefs τ sig) (V19 m (outs m) c))
    (hch := fun c => ⟨sep_mono (Entails.of_eq (Pipeline.unscopedBufs_held c (V0 m c))) .rfl, .rfl, .rfl, .rfl, .rfl, .rfl, .rfl, .rfl, .rfl, .rfl, .rfl, .rfl, .rfl, .rfl, .rfl, .rfl, .rfl, .rfl, .rfl, (sep_mono .rfl (hE7 c))⟩)
    (hinit := ?_) (hfin := fun c s' => ?_) (hQ := fun _ h => h)
  · rw [bigSep_sep', bigSep_sep' _ _ (fun c => R (F := F) c)]
    iintro ⟨⟨Hh, Hr⟩, Hla⟩
    imod (hE0 (F := F) ρ) $$ [Hr Hla] with HE
    · iframe
    imodintro
    iframe
  · unfold StableHlo.held
    iintro ⟨Hh, HSI⟩
    ihave Hr := (pointsTo_read_all (Pipeline.ucRefs τ sig) (fun b => ((c : Thread nD τ).1, b)) (V19 m (outs m) c) s') $$ [Hh HSI]
    · iframe
    icases Hr with ⟨%h, HSI⟩
    imodintro
    iframe HSI
    ipureintro
    rw [← V19_main_arg0 m (outs m) c, ← V19_main_arg1 m (outs m) c, ← V19_main_arg2 m (outs m) c, ← V19_main_arg3 m (outs m) c, ← V19_main_arg4 m (outs m) c, ← V19_main_arg5 m (outs m) c, ← V19_main_arg6 m (outs m) c, ← V19_main_arg7 m (outs m) c, ← V19_main_arg8 m (outs m) c, ← V19_main_arg9 m (outs m) c, ← V19_main_arg10 m (outs m) c, ← V19_main_arg11 m (outs m) c]
    refine ⟨?_, ?_, ?_, ?_, ?_, ?_, ?_, ?_, ?_, ?_, ?_, ?_, ?_, ?_⟩ <;>
      exact h (Proc.devRef .tc _) (Finset.mem_filter.mpr ⟨StableHlo.devRef_mem_tcRefs _, by decide⟩)

end Cert.KernelIdeal.Layers

end
-- ==== Proof.Stages.lean ====
import proofs.«427227_j17824114279158_3_alg».proof.Proof.Gen.ReferenceIdeal.Run
import Idealize.ShloMosaic.PureOps.Ideal

noncomputable section

namespace Cert.Stages

open Cert.ReferenceIdeal Cert.ReferenceIdeal.Gen Idealize.ShloMosaic Idealize.ShloMosaic.TcCoe Idealize.SL.Sem

-- Rows 0 and 1 of the edge table: every edge's source word and destination word.
def srcW (ei : IVec S2x393216 32) : IVec S393216 32 :=
  shapeCast _ (extractStridedSlice S1x393216 ![0, 0] ei slices_S2x393216_S1x393216_0_0) shapeCasts_S1x393216_S393216
def dstW (ei : IVec S2x393216 32) : IVec S393216 32 :=
  shapeCast _ (extractStridedSlice S1x393216 ![1, 0] ei slices_S2x393216_S1x393216_1_0) shapeCasts_S1x393216_S393216
-- A negative word counts from the last of the 12288 nodes.
def wrapW (s : IVec S393216 32) : IVec S393216 32 :=
  select (cmpi .slt s (broadcastInDim S393216 ![] bcast_S_S393216 (constantI S_ 32 0#32)))
    (addi s (broadcastInDim S393216 ![] bcast_S_S393216 (constantI S_ 32 12288#32))) s
-- A vector of words as a one-column matrix.
def col (s : IVec S393216 32) : IVec S393216x1 32 := broadcastInDim S393216x1 ![0] bcast_S393216_S393216x1_0 s

def zeros64 : FVec Ideal S12288x64 .f32 := broadcastInDim S12288x64 ![] bcast_S_S12288x64 (constant S_ .f32 0x00000000#32)
def zeros512 : FVec Ideal S12288x512 .f32 := broadcastInDim S12288x512 ![] bcast_S_S12288x512 (constant S_ .f32 0x00000000#32)

-- Every edge's source node's row.
def rows64 (ei : IVec S2x393216 32) (x : FVec Ideal S12288x64 .f32) : FVec Ideal S393216x64 .f32 :=
  Host.gather gather_S12288x64_S393216x1_S393216x64_1_0_n_n_0_1_164 x (col (wrapW (srcW ei)))
def rows512 (ei : IVec S2x393216 32) (x : FVec Ideal S12288x512 .f32) : FVec Ideal S393216x512 .f32 :=
  Host.gather gather_S12288x512_S393216x1_S393216x512_1_0_n_n_0_1_1512 x (col (wrapW (srcW ei)))
-- Edge rows added up at their destination nodes.
def sum64 (ei : IVec S2x393216 32) (u : FVec Ideal S393216x64 .f32) : FVec Ideal S12288x64 .f32 :=
  Host.scatterAdd scatter_S12288x64_S393216x1_S393216x64_1_0_0_1 zeros64 (col (dstW ei)) u
def sum512 (ei : IVec S2x393216 32) (u : FVec Ideal S393216x512 .f32) : FVec Ideal S12288x512 .f32 :=
  Host.scatterAdd scatter_S12288x512_S393216x1_S393216x512_1_0_0_1 zeros512 (col (dstW ei)) u
-- The aggregation layer: row d is the sum, over the edges into d, of the source nodes' rows.
def agg64 (ei : IVec S2x393216 32) (x : FVec Ideal S12288x64 .f32) : FVec Ideal S12288x64 .f32 := sum64 ei (rows64 ei x)
def agg512 (ei : IVec S2x393216 32) (x : FVec Ideal S12288x512 .f32) : FVec Ideal S12288x512 .f32 := sum512 ei (rows512 ei x)

-- A bias vector as a one-row matrix.
def biasRow64 (b : FVec Ideal S64 .f32) : FVec Ideal S1x64 .f32 := broadcastInDim S1x64 ![1] bcast_S64_S1x64_1 b
def biasRow512 (b : FVec Ideal S512 .f32) : FVec Ideal S1x512 .f32 := broadcastInDim S1x512 ![1] bcast_S512_S1x512_1 b
-- The activation layer: the bias row added to every node's row, negative entries replaced by 0.
def actRow64 (x : FVec Ideal S12288x64 .f32) (br : FVec Ideal S1x64 .f32) : FVec Ideal S12288x64 .f32 :=
  maximumf (addf x (broadcastInDim S12288x64 ![0, 1] bcast_S1x64_S12288x64_0_1 br)) zeros64
def actRow512 (x : FVec Ideal S12288x512 .f32) (br : FVec Ideal S1x512 .f32) : FVec Ideal S12288x512 .f32 :=
  maximumf (addf x (broadcastInDim S12288x512 ![0, 1] bcast_S1x512_S12288x512_0_1 br)) zeros512
def act64 (x : FVec Ideal S12288x64 .f32) (b : FVec Ideal S64 .f32) : FVec Ideal S12288x64 .f32 := actRow64 x (biasRow64 b)
def act512 (x : FVec Ideal S12288x512 .f32) (b : FVec Ideal S512 .f32) : FVec Ideal S12288x512 .f32 := actRow512 x (biasRow512 b)

-- The dense layers: the nodes' rows times a weight matrix.
def mmIn (x : FVec Ideal S12288x512 .f32) (w : FVec Ideal S512x64 .f32) : FVec Ideal S12288x64 .f32 :=
  Host.dotGeneral dot_S12288x512_S512x64_S12288x64_1_0_0_1_n_n none x w
def mmHid (x : FVec Ideal S12288x64 .f32) (w : FVec Ideal S64x64 .f32) : FVec Ideal S12288x64 .f32 :=
  Host.dotGeneral dot_S12288x64_S64x64_S12288x64_1_0_0_1_n_n none x w
def mmOut (x : FVec Ideal S12288x64 .f32) (w : FVec Ideal S64x512 .f32) : FVec Ideal S12288x512 .f32 :=
  Host.dotGeneral dot_S12288x64_S64x512_S12288x512_1_0_0_1_n_n none x w
-- Every pair of rows' inner product.
def gram (s : FVec Ideal S12288x64 .f32) : FVec Ideal S12288x12288 .f32 :=
  Host.dotGeneral dot_S12288x64_S64x12288_S12288x12288_1_0_0_1_n_n none s (transpose S64x12288 [1, 0] s transposes_S12288x64_S64x12288_1_0)

-- The shared encoder before its last activation: dense layer then aggregation, twice.
def enc (h : FVec Ideal S12288x512 .f32) (ei : IVec S2x393216 32) (W1 : FVec Ideal S512x64 .f32) (b1 : FVec Ideal S64 .f32)
    (W2 : FVec Ideal S64x64 .f32) : FVec Ideal S12288x64 .f32 :=
  agg64 ei (mmHid (act64 (agg64 ei (mmIn h W1)) b1) W2)

variable (m : (ℓ : Loc nD τ sig) → Buf (Elt Ideal) ℓ) (c : Dev nD)

abbrev arg (r : Ref sig .tc) : Buf (Elt Ideal) ((c.tc : Thread nD τ).loc r) := m ((c.tc : Thread nD τ).loc r)

-- The first result is the gram matrix of the structure decoder's activation.
theorem res_out0_eq : Cert.ReferenceIdeal.Value.res_out0 (F := Ideal) m c =
    gram (act64 (agg64 (arg m c main_arg1) (mmHid (act64 (enc (arg m c main_arg0) (arg m c main_arg1) (arg m c main_arg2) (arg m c main_arg3) (arg m c main_arg4)) (arg m c main_arg5)) (arg m c main_arg10))) (arg m c main_arg11)) :=
  rfl

-- The second result is the attribute decoder's second activation.
theorem res_out1_eq : Cert.ReferenceIdeal.Value.res_out1 (F := Ideal) m c =
    act512 (agg512 (arg m c main_arg1) (mmOut (act64 (agg64 (arg m c main_arg1) (mmHid (act64 (enc (arg m c main_arg0) (arg m c main_arg1) (arg m c main_arg2) (arg m c main_arg3) (arg m c main_arg4)) (arg m c main_arg5)) (arg m c main_arg6))) (arg m c main_arg7)) (arg m c main_arg8))) (arg m c main_arg9) :=
  rfl

end Cert.Stages

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Idealize.ShloMosaic.Lib.KernelVsHost
import Idealize.ShloMosaic.Lib.IdealHost
import Mathlib.Algebra.BigOperators.Group.Finset.Basic
import Mathlib.Algebra.BigOperators.Fin

noncomputable section

open scoped BigOperators

namespace Cert.ReferenceIdeal.Hand

open Idealize.ShloMosaic Idealize.ShloMosaic.ValueIdx

section Gather
variable {α : Type}

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

-- Entry (e, q) of a gather of whole rows reads the table at row (start word of e, signed, clamped to the rows) and column q.
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  have hsi : ∀ h, (rowGather N E D wf).siIdx (ix2 e q) ⟨0, h⟩ = ix2 e 0 := fun _ =>
    funext fun b => Fin.ext (by match b with | ⟨0, _⟩ => rfl | ⟨1, _⟩ => rfl)
  unfold Host.gather
  refine congrArg x (funext fun a => Fin.ext ?_)
  match a with
  | ⟨0, _⟩ => exact congrArg (fun i => min (idx i).toInt.toNat (N - 1)) (hsi _)
  | ⟨1, _⟩ => exact Nat.zero_add q.val

end Gather

section Scatter

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start_zero (e : Fin E) (q' : Fin D) :
    (rowScatter N E D wf).start (ix2 e q') idx 0 = (idx (ix2 e 0)).toInt :=
  congrArg (fun i => (idx i).toInt) (funext fun b => Fin.ext (by match b with | ⟨0, _⟩ => rfl | ⟨1, _⟩ => rfl))

theorem rowScatter_start_one (e : Fin E) (q' : Fin D) :
    (rowScatter N E D wf).start (ix2 e q') idx 1 = 0 :=
  dif_neg (show (1 : Fin 2) ∉ [(0 : Fin 2)] by decide)

theorem rowScatter_window_zero (e : Fin E) (q' : Fin D) :
    (rowScatter N E D wf).window (ix2 e q') 0 = 0 :=
  dif_neg (show (0 : Fin 2) ∉ (List.finRange 2).filter (· ∉ [(0 : Fin 2)]) by decide)

theorem rowScatter_window_one (e : Fin E) (q' : Fin D) :
    (rowScatter N E D wf).window (ix2 e q') 1 = q'.val :=
  dif_pos (show (1 : Fin 2) ∈ (List.finRange 2).filter (· ∉ [(0 : Fin 2)]) by decide)

-- Update (e, q') lands at (d, q) exactly when q' = q and the start word of e, read signed, is d.
theorem rowScatter_resultIdx_iff (e : Fin E) (q' : Fin D) (d : Fin N) (q : Fin D) :
    (rowScatter N E D wf).resultIdx? (ix2 e q') idx = some (ix2 d q)
      ↔ q' = q ∧ (idx (ix2 e 0)).toInt = (d.val : ℤ) := by
  unfold ScatterDims.resultIdx?
  split
  · next h =>
    rw [Option.some.injEq, funext_iff]
    simp only [Fin.forall_fin_two, Fin.ext_iff, rowScatter_start_zero, rowScatter_start_one, rowScatter_window_zero,
      rowScatter_window_one] at h ⊢
    show (_ : ℤ).toNat = d.val ∧ (_ : ℤ).toNat = q.val ↔ _
    omega
  · next h =>
    simp only [reduceCtorEq, false_iff]
    rintro ⟨rfl, hd'⟩
    refine h (Fin.forall_fin_two.mpr ⟨?_, ?_⟩)
    · rw [rowScatter_start_zero, rowScatter_window_zero]
      show _ ∧ _ < (N : ℤ)
      omega
    · rw [rowScatter_start_one, rowScatter_window_one]
      show _ ∧ _ < (D : ℤ)
      omega

-- Entry (d, q) of the accumulating row scatter: the operand's entry plus the updates (e, q) of the edges whose word is d.
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff, ite_and, Finset.sum_ite_eq', Finset.mem_univ, if_true]

end Scatter

section Broadcasts
variable {α : Type}

theorem bcastScalar_apply {t : Shape} (h : (⟨0, ![]⟩ : Shape).BroadcastsInDim t ![])
    (v : (⟨0, ![]⟩ : Shape).Idx → α) (j : t.Idx) : broadcastInDim t ![] h v j = v ix0 :=
  broadcastInDim_scalar_apply h v j

-- A vector laid along the rows of an [E, D] array reads, at (e, q), the vector at e.
theorem bcastAxis0_apply {E D : Nat} (h : (⟨1, ![E]⟩ : Shape).BroadcastsInDim ⟨2, ![E, D]⟩ ![0])
    (v : (⟨1, ![E]⟩ : Shape).Idx → α) (e : Fin E) (q : Fin D) :
    broadcastInDim ⟨2, ![E, D]⟩ ![0] h v (ix2 e q) = v (ix1 e) :=
  broadcastInDim_apply _ h v _ (ix1 e) fun a => by
    match a with
    | ⟨0, _⟩ =>
      show e.val = if E = 1 then 0 else e.val
      split <;> omega

-- A vector laid along the columns of an [N, D] array reads, at (d, q), the vector at q.
theorem bcastAxis1_apply {N D : Nat} (h : (⟨1, ![D]⟩ : Shape).BroadcastsInDim ⟨2, ![N, D]⟩ ![1])
    (v : (⟨1, ![D]⟩ : Shape).Idx → α) (d : Fin N) (q : Fin D) :
    broadcastInDim ⟨2, ![N, D]⟩ ![1] h v (ix2 d q) = v (ix1 q) :=
  broadcastInDim_apply _ h v _ (ix1 q) fun a => by
    match a with
    | ⟨0, _⟩ =>
      show q.val = if D = 1 then 0 else q.val
      split <;> omega

theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) :=
  broadcastInDim_oneRow_apply h v d q

end Broadcasts

theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.Val.Host.lean ====
import proofs.«427227_j17824114279158_3_alg».proof.Proof.Gen.KernelIdeal.Regions
import proofs.«427227_j17824114279158_3_alg».proof.Proof.Stages
import proofs.«427227_j17824114279158_3_alg».proof.Proof.LibRowGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Hand
open Cert.Stages (srcW dstW wrapW col agg64 biasRow64 biasRow512)

variable (m : (ℓ : Loc nD τ sig) → Buf (Elt Ideal) ℓ) (outs : Outs (F := Ideal)) (c : Dev nD)

abbrev edges : IVec S2x393216 32 := m ((c : Thread nD τ).loc main_arg1)

def SrcInRange : Prop :=
  ∀ e : Fin 393216, 0 ≤ (Cert.Stages.srcW (edges m c) (ix1 e)).toInt ∧ (Cert.Stages.srcW (edges m c) (ix1 e)).toInt < 12288

section General
variable {α : Type}

-- A vector reshaped to one row is the vector laid along that row: both read the vector at q.
theorem row_of_reshape {D : Nat} {b b' : (⟨1, ![D]⟩ : Shape).Idx → α} {o : (⟨2, ![1, D]⟩ : Shape).Idx → α}
    {hc : (⟨1, ![D]⟩ : Shape).ShapeCasts ⟨2, ![1, D]⟩} (hb : (⟨1, ![D]⟩ : Shape).BroadcastsInDim ⟨2, ![1, D]⟩ ![1])
    (ho : o = shapeCast ⟨2, ![1, D]⟩ b hc) (e : b = b') : o = broadcastInDim ⟨2, ![1, D]⟩ ![1] hb b' := by
  subst ho e
  funext j
  obtain ⟨z, q, rfl⟩ : ∃ z q, j = ix2 z q := ⟨j 0, j 1, eq_ix2 j⟩
  rw [shapeCast_a_1a_apply, bcastAxis1_apply]

-- A reduce by "and" from 1 of an array of ones is 1 everywhere: 1 is a fixed point of the fold.
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact List.foldl_fixed' (fun n => by rw [hx n]; rfl) _

end General

-- A non-negative word is not "less than zero", so the select keeps it.
theorem wrapW_apply (s : IVec S393216 32) (e : Fin 393216) (h : 0 ≤ (s (ix1 e)).toInt) :
    wrapW s (ix1 e) = s (ix1 e) := by
  have hc : IntOp.cmpi .slt (s (ix1 e)) 0#32 = 0#1 :=
    eq_zero_of_ne_one fun hc => h.not_gt (by simpa using IntOp.cmpi_slt.mp hc)
  unfold Cert.Stages.wrapW
  rw [select_apply]
  unfold cmpi addi
  rw [bcastScalar_apply, bcastScalar_apply]
  exact (congrArg (Scalar.select · _ _) hc).trans (select_zero _ _)

def guard (s : IVec S393216 32) : IVec S393216x1 1 :=
  andi
    (cmpi .sge (col (wrapW s)) (broadcastInDim S393216x1 ![] bcast_S_S393216x1 (constantI S_ 32 0#32)))
    (cmpi .sle (col (wrapW s))
      (broadcastInDim S393216x1 ![0, 1] bcast_S1x1_S393216x1_0_1
        (broadcastInDim S1x1 ![1] bcast_S1_S1x1_1 (constantI S1 32 12287#32))))

def guardedRows (x : FVec Ideal S12288x64 .f32) (s : IVec S393216 32) : FVec Ideal S393216x64 .f32 :=
  select
    (broadcastInDim S393216x64 ![0] bcast_S393216_S393216x64_0
      (Host.reduce IntOp.andi (guard s) (constantI S_ 1 1#1) reducesTo_S393216x1_S393216_d1 h_S_))
    (Host.gather gather_S12288x64_S393216x1_S393216x64_1_0_n_n_0_1_164 x (col (wrapW s)))
    (broadcastInDim S393216x64 ![] bcast_S_S393216x64 (constant (F := Ideal) S_ .f32 0x7FC00000#32))

-- Where every word lies in [0, 12288) both compares of the guard hold at every edge.
theorem guard_one (s : IVec S393216 32)
    (hs : ∀ e : Fin 393216, 0 ≤ (s (ix1 e)).toInt ∧ (s (ix1 e)).toInt < 12288) (i : S393216x1.Idx) :
    guard s i = 1#1 := by
  obtain ⟨e, z, rfl⟩ : ∃ e z, i = ix2 e z := ⟨i 0, i 1, eq_ix2 i⟩
  have hcol : col (wrapW s) (ix2 e z) = s (ix1 e) :=
    (bcastAxis0_apply _ _ e z).trans (wrapW_apply s e (hs e).1)
  have hlo : broadcastInDim S393216x1 ![] bcast_S_S393216x1 (constantI S_ 32 0#32) (ix2 e z) = 0#32 :=
    bcastScalar_apply _ _ _
  have hhi : broadcastInDim S393216x1 ![0, 1] bcast_S1x1_S393216x1_0_1
      (broadcastInDim S1x1 ![1] bcast_S1_S1x1_1 (constantI S1 32 12287#32)) (ix2 e z) = 12287#32 :=
    (bcastRows_apply _ _ e z).trans (bcastAxis1_apply _ _ 0 z)
  refine IntOp.andi_eq_one.mpr ⟨IntOp.cmpi_sge.mpr ?_, IntOp.cmpi_sle.mpr ?_⟩
  · rw [hlo, hcol]
    exact (hs e).1
  · rw [hhi, hcol]
    have h2 := (hs e).2
    have : (12287#32 : BitVec 32).toInt = 12287 := by decide
    omega

def scatterSum (d : IVec S393216 32) (u : FVec Ideal S393216x64 .f32) : FVec Ideal S12288x64 .f32 :=
  Host.scatterAdd scatter_S12288x64_S393216x1_S393216x64_1_0_0_1 Cert.Stages.zeros64 (col d) u

section Terms
variable (W : Valuation τ sig (Elt Ideal))

set_option maxHeartbeats 1000000 in
theorem lookup1_term : StableHlo.after hostOps1 W (Proc.devRef .tc main_v5) = guardedRows (W main_v4) (W main_v1) := by
  after_results_simp
  simp only [StableHlo.TRef.ofBuf, StableHlo.TRef.toBuf, cast_eq]
  rfl

set_option maxHeartbeats 1000000 in
theorem lookup2_term : StableHlo.after hostOps2 W (Proc.devRef .tc main_v11) = guardedRows (W main_v10) (W main_v1) := by
  after_results_simp
  simp only [StableHlo.TRef.ofBuf, StableHlo.TRef.toBuf, cast_eq]
  rfl

set_option maxHeartbeats 1000000 in
theorem lookup3_term : StableHlo.after hostOps3 W (Proc.devRef .tc main_v17) = guardedRows (W main_v16) (W main_v1) := by
  after_results_simp
  simp only [StableHlo.TRef.ofBuf, StableHlo.TRef.toBuf, cast_eq]
  rfl

set_option maxHeartbeats 1000000 in
theorem lookup4_term : StableHlo.after hostOps4 W (Proc.devRef .tc main_v23) = guardedRows (W main_v22) (W main_v1) := by
  after_results_simp
  simp only [StableHlo.TRef.ofBuf, StableHlo.TRef.toBuf, cast_eq]
  rfl

set_option maxHeartbeats 1000000 in
theorem lookup6_term : StableHlo.after hostOps6 W (Proc.devRef .tc main_v31) = guardedRows (W main_v30) (W main_v1) := by
  after_results_simp
  simp only [StableHlo.TRef.ofBuf, StableHlo.TRef.toBuf, cast_eq]
  rfl

theorem scatter1_term : StableHlo.after hostOps1_1 W (Proc.devRef .tc main_v8) = scatterSum (W main_v3) (W main_v5) := by
  after_results
  rfl
theorem scatter2_term : StableHlo.after hostOps2_1 W (Proc.devRef .tc main_v14) = scatterSum (W main_v3) (W main_v11) := by
  after_results
  rfl
theorem scatter3_term : StableHlo.after hostOps3_1 W (Proc.devRef .tc main_v20) = scatterSum (W main_v3) (W main_v17) := by
  after_results
  rfl
theorem scatter4_term : StableHlo.after hostOps4_1 W (Proc.devRef .tc main_v26) = scatterSum (W main_v3) (W main_v23) := by
  after_results
  rfl
theorem scatter6_term : StableHlo.after hostOps6_1 W (Proc.devRef .tc main_v34) = scatterSum (W main_v3) (W main_v31) := by
  after_results
  rfl
theorem reshape1_term : StableHlo.after hostOps1_1 W (Proc.devRef .tc main_v9) = shapeCast S1x64 (W main_arg3) shapeCasts_S64_S1x64 := by
  after_results
  rfl
theorem reshape2_term : StableHlo.after hostOps2_1 W (Proc.devRef .tc main_v15) = shapeCast S1x64 (W main_arg5) shapeCasts_S64_S1x64 := by
  after_results
  rfl
theorem reshape3_term : StableHlo.after hostOps3_1 W (Proc.devRef .tc main_v21) = shapeCast S1x64 (W main_arg7) shapeCasts_S64_S1x64 := by
  after_results
  rfl
theorem reshape4_term : StableHlo.after hostOps4_1 W (Proc.devRef .tc main_v27) = shapeCast S1x512 (W main_arg9) shapeCasts_S512_S1x512 := by
  after_results
  rfl
theorem reshape5_term : StableHlo.after hostOps5 W (Proc.devRef .tc main_v29) = shapeCast S1x64 (W main_arg5) shapeCasts_S64_S1x64 := by
  after_results
  rfl
theorem reshape6_term : StableHlo.after hostOps6_1 W (Proc.devRef .tc main_v35) = shapeCast S1x64 (W main_arg11) shapeCasts_S64_S1x64 := by
  after_results
  rfl

end Terms

theorem src_words : V1 m c main_v1 = srcW (edges m c) := by
  show StableHlo.after hostOps0 _ (Proc.devRef .tc main_v1) = _
  after_results
  rfl
theorem dst_words : V1 m c main_v3 = dstW (edges m c) := by
  show StableHlo.after hostOps0 _ (Proc.devRef .tc main_v3) = _
  after_results
  rfl

-- With every source word in range the guard is 1 on every edge, the fill value is never read, and the sum is the aggregation.
theorem agg_of (hr : SrcInRange m c) {o x : FVec Ideal S12288x64 .f32} {d s : IVec S393216 32}
    {u : FVec Ideal S393216x64 .f32} (ho : o = scatterSum d u) (hu : u = guardedRows x s)
    (hd : d = V1 m c main_v3) (hs : s = V1 m c main_v1) : o = agg64 (edges m c) x := by
  subst ho hu hd hs
  rw [dst_words, src_words]
  refine congrArg (scatterSum _) (funext fun j => ?_)
  obtain ⟨e, q, rfl⟩ : ∃ e q, j = ix2 e q := ⟨j 0, j 1, eq_ix2 j⟩
  unfold guardedRows
  rw [select_apply, bcastAxis0_apply, reduce_andi_ones _ (constantI S_ 1 1#1) _ _ (guard_one _ hr) (fun _ => rfl), select_one]
  rfl

abbrev kept : List (Ref sig .tc) := [main_v1, main_v3, main_arg3, main_arg5, main_arg7, main_arg9, main_arg11]

section Kept
variable {r : Ref sig .tc} (h : r ∈ kept)
include h

theorem not_written {W : List (Ref sig .tc)} (hW : ∀ r ∈ kept, r ∉ W := by decide) : r ∉ W := hW r h

-- Nothing after the first step writes the edge words or the bias vectors.
theorem V2_kept : V2 m outs c r = V1 m c r := V2_of _ _ _ _ (not_written h)
theorem V3_kept : V3 m outs c r = V1 m c r := (V3_of _ _ _ _ (not_written h)).trans (V2_kept m outs c h)
theorem V5_kept : V5 m outs c r = V1 m c r := (V5_of _ _ _ _ (not_written h)).trans <| (V4_of _ _ _ _ (not_written h)).trans (V3_kept m outs c h)
theorem V6_kept : V6 m outs c r = V1 m c r := (V6_of _ _ _ _ (not_written h)).trans (V5_kept m outs c h)
theorem V8_kept : V8 m outs c r = V1 m c r := (V8_of _ _ _ _ (not_written h)).trans <| (V7_of _ _ _ _ (not_written h)).trans (V6_kept m outs c h)
theorem V9_kept : V9 m outs c r = V1 m c r := (V9_of _ _ _ _ (not_written h)).trans (V8_kept m outs c h)
theorem V11_kept : V11 m outs c r = V1 m c r := (V11_of _ _ _ _ (not_written h)).trans <| (V10_of _ _ _ _ (not_written h)).trans (V9_kept m outs c h)
theorem V12_kept : V12 m outs c r = V1 m c r := (V12_of _ _ _ _ (not_written h)).trans (V11_kept m outs c h)
theorem V14_kept : V14 m outs c r = V1 m c r := (V14_of _ _ _ _ (not_written h)).trans <| (V13_of _ _ _ _ (not_written h)).trans (V12_kept m outs c h)
theorem V16_kept : V16 m outs c r = V1 m c r := (V16_of _ _ _ _ (not_written h)).trans <| (V15_of _ _ _ _ (not_written h)).trans (V14_kept m outs c h)
theorem V17_kept : V17 m outs c r = V1 m c r := (V17_of _ _ _ _ (not_written h)).trans (V16_kept m outs c h)

end Kept

theorem agg_after_1 (h : SrcInRange m c) :
    V4 m outs c main_v8 = Cert.Stages.agg64 (edges m c) (V2 m outs c main_v4) :=
  agg_of m c h (scatter1_term _) (lookup1_term _) (V3_kept m outs c (by decide)) (V2_kept m outs c (by decide))
theorem agg_after_2 (h : SrcInRange m c) :
    V7 m outs c main_v14 = Cert.Stages.agg64 (edges m c) (V5 m outs c main_v10) :=
  agg_of m c h (scatter2_term _) (lookup2_term _) (V6_kept m outs c (by decide)) (V5_kept m outs c (by decide))
theorem agg_after_3 (h : SrcInRange m c) :
    V10 m outs c main_v20 = Cert.Stages.agg64 (edges m c) (V8 m outs c main_v16) :=
  agg_of m c h (scatter3_term _) (lookup3_term _) (V9_kept m outs c (by decide)) (V8_kept m outs c (by decide))
theorem agg_after_4 (h : SrcInRange m c) :
    V13 m outs c main_v26 = Cert.Stages.agg64 (edges m c) (V11 m outs c main_v22) :=
  agg_of m c h (scatter4_term _) (lookup4_term _) (V12_kept m outs c (by decide)) (V11_kept m outs c (by decide))
theorem agg_after_6 (h : SrcInRange m c) :
    V18 m outs c main_v34 = Cert.Stages.agg64 (edges m c) (V16 m outs c main_v30) :=
  agg_of m c h (scatter6_term _) (lookup6_term _) (V17_kept m outs c (by decide)) (V16_kept m outs c (by decide))
theorem bias_after_1 : V4 m outs c main_v9 = Cert.Stages.biasRow64 (m ((c : Thread nD τ).loc main_arg3)) :=
  row_of_reshape _ (reshape1_term _) ((V3_kept m outs c (by decide)).trans (V1_of m c _ (by decide)))
theorem bias_after_2 : V7 m outs c main_v15 = Cert.Stages.biasRow64 (m ((c : Thread nD τ).loc main_arg5)) :=
  row_of_reshape _ (reshape2_term _) ((V6_kept m outs c (by decide)).trans (V1_of m c _ (by decide)))
theorem bias_after_3 : V10 m outs c main_v21 = Cert.Stages.biasRow64 (m ((c : Thread nD τ).loc main_arg7)) :=
  row_of_reshape _ (reshape3_term _) ((V9_kept m outs c (by decide)).trans (V1_of m c _ (by decide)))
theorem bias_after_4 : V13 m outs c main_v27 = Cert.Stages.biasRow512 (m ((c : Thread nD τ).loc main_arg9)) :=
  row_of_reshape _ (reshape4_term _) ((V12_kept m outs c (by decide)).trans (V1_of m c _ (by decide)))
theorem bias_after_6 : V18 m outs c main_v35 = Cert.Stages.biasRow64 (m ((c : Thread nD τ).loc main_arg11)) :=
  row_of_reshape _ (reshape6_term _) ((V17_kept m outs c (by decide)).trans (V1_of m c _ (by decide)))
theorem bias_after_5 : V15 m outs c main_v29 = Cert.Stages.biasRow64 (m ((c : Thread nD τ).loc main_arg5)) :=
  row_of_reshape _ (reshape5_term _) ((V14_kept m outs c (by decide)).trans (V1_of m c _ (by decide)))

end Cert.KernelIdeal.Layers

end
-- ==== Proof.Val.Tile.lean ====
import Idealize.ShloMosaic.Lib.ValueIdx

namespace Cert.Tiles

open Idealize.ShloMosaic Idealize.ShloMosaic.ValueIdx

theorem zero2 : (![0, 0] : Fin 2 → Nat) = fun _ => 0 := by decide

-- Row p of an array lies in the block of B rows and full width that starts at row (p / B) · B.
theorem mem_rowBlock {R C B : Nat} {off size : Fin 2 → Nat} {inb} (i : (⟨2, ![R, C]⟩ : Shape).Idx) (hB : 0 < B)
    (ho0 : off 0 = (i 0).val / B * B) (hs0 : size 0 = B) (ho1 : off 1 = 0) (hs1 : size 1 = C) :
    i ∈ (Rect.unit (s := ⟨2, ![R, C]⟩) off size inb).set := by
  rw [Rect.mem_set_unit]
  refine Fin.forall_fin_two.2 ⟨?_, ?_⟩
  · rw [ho0, hs0]; exact ⟨Nat.div_mul_le_self _ _, Nat.lt_div_mul_add hB⟩
  · rw [ho1, hs1, Nat.zero_add]; exact ⟨Nat.zero_le _, idx2_lt1 i⟩

end Cert.Tiles
-- ==== Proof.Val.Reg0.lean ====
import proofs.«427227_j17824114279158_3_alg».proof.Proof.KI.Reg0
import proofs.«427227_j17824114279158_3_alg».proof.Proof.Stages
import proofs.«427227_j17824114279158_3_alg».proof.Proof.Val.Tile
import Idealize.ShloMosaic.Lib.StackMember

noncomputable section

namespace Cert.KernelIdeal.Layers

open Cert.KernelIdeal Cert.KernelIdeal.Gen Cert.Tiles
open Idealize.ShloMosaic Idealize.ShloMosaic.TcCoe Idealize.ShloMosaic.ValueIdx Idealize.SL.Sem
open Idealize.ShloMosaic.StackMember (dotGeneral_plain_apply)
open Idealize.ShloMosaic.Pipeline (Dat Cfg Window)

theorem k0_pay1_apply (x0 : Vec Ideal S4096x512 .f32) (x1 : Vec Ideal S512x64 .f32) (j : S4096x64.Idx) :
    k0_pay1 x0 x1 j = ∑ k : Fin 512, x0 (ix2 (j 0) k) * x1 (ix2 k (j 1)) := by
  rw [eq_ix2 j]
  exact (congrFun (matmul_zero_eq_dotGeneral _ none _ _) _).trans (dotGeneral_plain_apply none _ _ _ _)

theorem mmIn_apply (h : FVec Ideal S12288x512 .f32) (w : FVec Ideal S512x64 .f32) (i : S12288x64.Idx) :
    Cert.Stages.mmIn h w i = ∑ k : Fin 512, h (ix2 (i 0) k) * w (ix2 k (i 1)) := by
  rw [eq_ix2 i]
  exact dotGeneral_plain_apply none h w _ _

variable (V : (c : Dev nD) → (b : Ref sig .tc) → Buf (Elt Ideal) ((c : Thread nD τ).loc b)) (c : Dev nD)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- A tile's product at (r, q) is the whole product at (4096 t + r, q): the same sum, term by term.
theorem flushed0_eq (t : Fin cfg0.N) :
    (dat0 (F := Ideal) V c).flushed 2 t
      = ((cfg0.win 2).blk t).view.read (Elt Ideal) (Cert.Stages.mmIn (V c main_arg0) (V c main_arg2)) := by
  show (cfg0.win 2).cut (grid0.coords t) ((dat0 (F := Ideal) V c).after 2 t) = _
  rw [after0_2]
  unfold out0_2
  rw [View.canon_unit_zero zero2]
  simp only [View.ld_unit_zero (S := S4096x512) zero2, View.ld_unit_zero (S := S512x64) zero2]
  obtain ⟨a0, a1, b0, b1, c0, c1⟩ := idx_facts0 t
  refine funext fun (j : S4096x64.Idx) => ?_
  show k0_pay1 (F := Ideal) (iblk0 V c 0 t) (iblk0 V c 1 t) j
    = Cert.Stages.mmIn (V c main_arg0) (V c main_arg2) ((win0_2.rect t).emb j)
  rw [k0_pay1_apply, mmIn_apply]
  refine Finset.sum_congr rfl fun k _ => ?_
  have e0 : (win0_0.rect t).emb (ix2 (j 0) k) = ix2 ((win0_2.rect t).emb j 0) k :=
    Shape.idx_ext₂ (by show win0_0.index t 0 * 4096 + 1 * (j 0).val = win0_2.index t 0 * 4096 + 1 * (j 0).val; rw [a0, c0])
      (by show win0_0.index t 1 * 512 + 1 * k.val = k.val; rw [a1]; omega)
  have e1 : (win0_1.rect t).emb (ix2 k (j 1)) = ix2 k ((win0_2.rect t).emb j 1) :=
    Shape.idx_ext₂ (by show win0_1.index t 0 * 512 + 1 * k.val = k.val; rw [b0]; omega)
      (by show win0_1.index t 1 * 64 + 1 * (j 1).val = win0_2.index t 1 * 64 + 1 * (j 1).val; rw [b1, c1])
  exact congrArg₂ (fun a b : EReal => a * b) (congrArg (V c main_arg0) e0) (congrArg (V c main_arg2) e1)

-- Row p of the product lies in the block of tile p / 4096.
theorem cover0 (i : S12288x64.Idx) :
    ∃ t : Fin cfg0.N, (cfg0.win 2).flush t = true ∧ i ∈ ((cfg0.win 2).blk t).view.set := by
  have ht : (i 0).val / 4096 < grid0.N := by have := idx2_lt0 i; rw [N_0]; omega
  obtain ⟨-, -, -, -, e0, e1⟩ := idx_facts0 ⟨_, ht⟩
  refine ⟨⟨_, ht⟩, flush0_2 _, ?_⟩
  show i ∈ ((View.whole main_v4).slice (win0_2.rect ⟨_, ht⟩)).set
  rw [View.set_slice_whole]
  exact mem_rowBlock (B := 4096) i (by decide) (by show win0_2.index _ 0 * 4096 = _; rw [e0]) rfl
    (by show win0_2.index _ 1 * 64 = 0; rw [e1]) rfl

theorem region0_value :
    (dat0 (F := Ideal) V c).arrAt 2 cfg0.N = Cert.Stages.mmIn (V c main_arg0) (V c main_arg2) :=
  (dat0 (F := Ideal) V c).arrAt_eq_of_cover 2 _ (fun t _ => flushed0_eq V c t) cover0

end Cert.KernelIdeal.Layers

end
-- ==== Proof.Val.TileHid.lean ====
import proofs.«427227_j17824114279158_3_alg».proof.Proof.Gen.KernelIdeal.Skeleton
import proofs.«427227_j17824114279158_3_alg».proof.Proof.Stages
import Idealize.ShloMosaic.Lib.ValueLayout
import Idealize.ShloMosaic.Lib.IdealHost
import Idealize.ShloMosaic.Lib.StackMember

noncomputable section

namespace Cert.KernelIdeal.Layers.TileHid

open Cert.KernelIdeal Cert.KernelIdeal.Gen
open Idealize.ShloMosaic Idealize.ShloMosaic.TcCoe Idealize.ShloMosaic.ValueIdx Idealize.ShloMosaic.StackMember Idealize.SL.Sem

-- The tile's payload at (p, q) is the sum over k of max(block (p, k) + row (0, k), 0) times weight (k, q).
theorem pay_apply (x0 : Vec Ideal S1024x64 .f32) (x1 : Vec Ideal S1x64 .f32) (x2 : Vec Ideal S64x64 .f32) (p : Fin 1024) (q : Fin 64) :
    k1_pay1 x0 x1 x2 (ix2 p q) = ∑ k : Fin 64, max (x0 (ix2 p k) + x1 (ix2 (0 : Fin 1) k)) 0 * x2 (ix2 k q) := by
  unfold k1_pay1
  rw [matmul_zero_eq_dotGeneral]
  refine (dotGeneral_plain_apply (m := 1024) (n := 64) none _ _ p q).trans (Finset.sum_congr rfl fun k _ => ?_)
  rw [truncf_apply, truncf_apply, maximumf_apply, addf_apply, shapeCast_self, shapeCast_self, broadcast_apply,
    broadcastTo_1b_ab_apply, show (FloatOps.ofBits FTy.f32 0x00000000#32 : Ideal .f32) = 0 from Ideal.ofBits_zero_f32]

-- Bias row and rectifier at (p, k): max(x (p, k) + row (0, k), 0).
theorem actRow64_apply (x : FVec Ideal Cert.ReferenceIdeal.S12288x64 .f32) (r : FVec Ideal Cert.ReferenceIdeal.S1x64 .f32) (p : Fin 12288) (k : Fin 64) :
    Cert.Stages.actRow64 x r (ix2 p k) = max (x (ix2 p k) + r (ix2 (0 : Fin 1) k)) 0 := by
  unfold Cert.Stages.actRow64 Cert.Stages.zeros64
  rw [maximumf_apply, addf_apply, broadcastInDim_oneRow_apply, broadcastInDim_scalar_apply, constant_apply, Ideal.ofBits_zero_f32]

-- A single piece over the whole rectangle is its payload, and a load through the whole rectangle reads the contents.
theorem canon_pay (x0 : Vec Ideal S1024x64 .f32) (x1 : Vec Ideal S1x64 .f32) (x2 : Vec Ideal S64x64 .f32) :
    (View.canon [⟨Rect.unit (s := S1024x64) ![0, 0] S1024x64.size inb_S1024x64_S1024x64_0_0,
      k1_pay1 (View.ld x0 (Rect.unit (s := S1024x64) ![0, 0] S1024x64.size inb_S1024x64_S1024x64_0_0))
        (View.ld x1 (Rect.unit (s := S1x64) ![0, 0] S1x64.size inb_S1x64_S1x64_0_0))
        (View.ld x2 (Rect.unit (s := S64x64) ![0, 0] S64x64.size inb_S64x64_S64x64_0_0))⟩] : Vec Ideal S1024x64 .f32) = k1_pay1 x0 x1 x2 := by
  have hz : (![0, 0] : Fin 2 → Nat) = fun _ => 0 := by decide
  rw [View.canon_unit_zero hz, View.ld_unit_zero hz, View.ld_unit_zero hz, View.ld_unit_zero hz]

-- Reading an array through an embedding whose block index is zero on every axis gives the array itself.
theorem comp_emb_zero {S : Shape} {α : Type} (X : S.Idx → α) {e : S.Idx → S.Idx} {ix : Fin S.rank → Nat} (hix : ix = fun _ => 0)
    (h : ∀ y a, (e y a).val = ix a * S.size a + 1 * (y a).val) : (fun y => X (e y)) = X := by
  subst hix
  exact funext fun y => congrArg X (funext fun a => Fin.ext ((h y a).trans (by show 0 * _ + 1 * _ = _; omega)))

-- With the aggregate's and the output's blocks both at rows r·1024 onward, the payload at a block entry is the whole-array function at the entry's place.
theorem hid_tile (A : FVec Ideal Cert.ReferenceIdeal.S12288x64 .f32) (B : Vec Ideal S1x64 .f32) (W : Vec Ideal S64x64 .f32)
    (e0 : S1024x64.Idx → S12288x64.Idx) (e1 : S1x64.Idx → S1x64.Idx) (e2 : S64x64.Idx → S64x64.Idx) (e3 : S1024x64.Idx → S12288x64.Idx)
    {i0 i1 i2 i3 : Fin 2 → Nat} {r : Nat} (hi : i0 = ![r, 0] ∧ i1 = (fun _ => 0) ∧ i2 = (fun _ => 0) ∧ i3 = ![r, 0])
    (h0 : ∀ y a, (e0 y a).val = i0 a * S1024x64.size a + 1 * (y a).val)
    (h1 : ∀ y a, (e1 y a).val = i1 a * S1x64.size a + 1 * (y a).val)
    (h2 : ∀ y a, (e2 y a).val = i2 a * S64x64.size a + 1 * (y a).val)
    (h3 : ∀ y a, (e3 y a).val = i3 a * S1024x64.size a + 1 * (y a).val) (j : S1024x64.Idx) :
    k1_pay1 (fun y => A (e0 y)) (fun y => B (e1 y)) (fun y => W (e2 y)) j = Cert.Stages.mmHid (Cert.Stages.actRow64 A B) W (e3 j) := by
  obtain ⟨rfl, hi1, hi2, rfl⟩ := hi
  rw [comp_emb_zero B hi1 h1, comp_emb_zero W hi2 h2]
  obtain ⟨p, q, rfl⟩ : ∃ (p : Fin 1024) (q : Fin 64), j = ix2 p q := ⟨j 0, j 1, eq_ix2 j⟩
  obtain ⟨p', q', hi⟩ : ∃ (p' : Fin 12288) (q' : Fin 64), e3 (ix2 p q) = ix2 p' q' := ⟨_, _, eq_ix2 _⟩
  obtain rfl : q' = q :=
    Fin.ext ((congrArg (fun f => (f 1).val) hi).symm.trans ((h3 _ 1).trans (by show 0 * 64 + 1 * q.val = q.val; omega)))
  rw [hi, pay_apply]
  refine (Finset.sum_congr rfl fun k _ => ?_).trans (dotGeneral_plain_apply (m := 12288) (n := 64) none _ _ p' q').symm
  rw [actRow64_apply]
  refine congrArg (fun z => max (A z + _) 0 * _) (funext fun a => Fin.ext ?_)
  match a with
  | ⟨0, _⟩ => exact (h0 _ 0).trans ((h3 (ix2 p q') 0).symm.trans (congrArg (fun f => (f 0).val) hi))
  | ⟨1, _⟩ => exact (h0 _ 1).trans (by show 0 * 64 + 1 * k.val = k.val; omega)

-- Every index of the array lies in the block of the tile its row falls in.
theorem row_cover {N : Nat} (hN : N = 12) {ix : Fin N → Fin 2 → Nat} (h : ∀ t, ix t = ![t.val, 0]) (i : S12288x64.Idx) :
    ∃ t : Fin N, ∀ a : Fin 2, ix t a * S1024x64.size a ≤ (i a).val ∧ (i a).val < ix t a * S1024x64.size a + S1024x64.size a := by
  subst hN
  have hi0 : (i 0).val < 12288 := (i 0).isLt
  have hi1 : (i 1).val < 64 := (i 1).isLt
  refine ⟨⟨(i 0).val / 1024, by omega⟩, fun a => ?_⟩
  rw [h]
  match a with
  | ⟨0, _⟩ => show (i 0).val / 1024 * 1024 ≤ (i 0).val ∧ (i 0).val < (i 0).val / 1024 * 1024 + 1024; omega
  | ⟨1, _⟩ => show 0 * 64 ≤ (i 1).val ∧ (i 1).val < 0 * 64 + 64; omega

end Cert.KernelIdeal.Layers.TileHid

end
-- ==== Proof.Val.Reg1.lean ====
import proofs.«427227_j17824114279158_3_alg».proof.Proof.KI.Reg1
import proofs.«427227_j17824114279158_3_alg».proof.Proof.Val.TileHid

noncomputable section

namespace Cert.KernelIdeal.Layers

open Cert.KernelIdeal Cert.KernelIdeal.Gen
open Idealize.ShloMosaic Idealize.ShloMosaic.TcCoe Idealize.SL.Sem TileHid

variable (V : (c : Dev nD) → (b : Ref sig .tc) → Buf (Elt Ideal) ((c : Thread nD τ).loc b)) (c : Dev nD)

theorem idx_facts1 : ∀ t : Fin cfg1.N, win1_0.index t = ![t.val, 0] ∧ win1_1.index t = (fun _ => 0)
    ∧ win1_2.index t = (fun _ => 0) ∧ win1_3.index t = ![t.val, 0] :=
  (by decide +kernel : ∀ t : Fin grid1.N, _)

-- Tile t's output block is block t of the whole-array function, and the twelve blocks cover the array.
theorem region1_value :
    (dat1 (F := Ideal) V c).arrAt 3 cfg1.N = Cert.Stages.mmHid (Cert.Stages.actRow64 (V c main_v8) (V c main_v9)) (V c main_arg4) := by
  refine (dat1 (F := Ideal) V c).arrAt_eq_of_cover 3 _ (fun t _ => ?_) fun i => ?_
  · show (cfg1.win 3).cut (grid1.coords t) ((dat1 V c).after 3 t) = _
    rw [after1_3]
    exact funext fun j => (congrFun (canon_pay _ _ _) j).trans
      (hid_tile (V c main_v8) (V c main_v9) (V c main_arg4) ((cfg1.win 0).blk t).view.emb ((cfg1.win 1).blk t).view.emb ((cfg1.win 2).blk t).view.emb
        ((cfg1.win 3).blk t).view.emb (idx_facts1 t) (fun _ _ => rfl) (fun _ _ => rfl) (fun _ _ => rfl) (fun _ _ => rfl) j)
  · obtain ⟨t, ht⟩ := row_cover N_1 (fun t => (idx_facts1 t).2.2.2) i
    exact ⟨t, flush1_3 t, (congrArg (i ∈ ·) (View.set_slice_whole main_v10 (win1_3.rect t))).mpr (Rect.mem_set_unit.mpr ht)⟩

end Cert.KernelIdeal.Layers

end
-- ==== Proof.Val.Reg2.lean ====
import proofs.«427227_j17824114279158_3_alg».proof.Proof.KI.Reg2
import proofs.«427227_j17824114279158_3_alg».proof.Proof.Val.TileHid

noncomputable section

namespace Cert.KernelIdeal.Layers

open Cert.KernelIdeal Cert.KernelIdeal.Gen
open Idealize.ShloMosaic Idealize.ShloMosaic.TcCoe Idealize.SL.Sem TileHid

variable (V : (c : Dev nD) → (b : Ref sig .tc) → Buf (Elt Ideal) ((c : Thread nD τ).loc b)) (c : Dev nD)

theorem idx_facts2 : ∀ t : Fin cfg2.N, win2_0.index t = ![t.val, 0] ∧ win2_1.index t = (fun _ => 0)
    ∧ win2_2.index t = (fun _ => 0) ∧ win2_3.index t = ![t.val, 0] :=
  (by decide +kernel : ∀ t : Fin grid2.N, _)

-- Tile t's output block is block t of the whole-array function, and the twelve blocks cover the array.
theorem region2_value :
    (dat2 (F := Ideal) V c).arrAt 3 cfg2.N = Cert.Stages.mmHid (Cert.Stages.actRow64 (V c main_v14) (V c main_v15)) (V c main_arg6) := by
  refine (dat2 (F := Ideal) V c).arrAt_eq_of_cover 3 _ (fun t _ => ?_) fun i => ?_
  · show (cfg2.win 3).cut (grid2.coords t) ((dat2 V c).after 3 t) = _
    rw [after2_3]
    exact funext fun j => (congrFun (canon_pay _ _ _) j).trans
      (hid_tile (V c main_v14) (V c main_v15) (V c main_arg6) ((cfg2.win 0).blk t).view.emb ((cfg2.win 1).blk t).view.emb ((cfg2.win 2).blk t).view.emb
        ((cfg2.win 3).blk t).view.emb (idx_facts2 t) (fun _ _ => rfl) (fun _ _ => rfl) (fun _ _ => rfl) (fun _ _ => rfl) j)
  · obtain ⟨t, ht⟩ := row_cover N_2 (fun t => (idx_facts2 t).2.2.2) i
    exact ⟨t, flush2_3 t, (congrArg (i ∈ ·) (View.set_slice_whole main_v16 (win2_3.rect t))).mpr (Rect.mem_set_unit.mpr ht)⟩

end Cert.KernelIdeal.Layers

end
-- ==== Proof.Val.Reg3.lean ====
import proofs.«427227_j17824114279158_3_alg».proof.Proof.KI.Reg3
import proofs.«427227_j17824114279158_3_alg».proof.Proof.Stages
import proofs.«427227_j17824114279158_3_alg».proof.Proof.Val.Tile
import proofs.«427227_j17824114279158_3_alg».proof.Proof.Val.TileHid

noncomputable section

namespace Cert.KernelIdeal.Layers

open Cert.KernelIdeal Cert.KernelIdeal.Gen Cert.Tiles
open Idealize.ShloMosaic Idealize.ShloMosaic.TcCoe Idealize.ShloMosaic.ValueIdx Idealize.SL.Sem
open Idealize.ShloMosaic.Pipeline (Dat Cfg Window)

-- The stored value at (p, q): the block's entry plus the bias row's entry q, rectified.
theorem pay3_apply (x0 : FVec Ideal S1024x64 .f32) (x1 : FVec Ideal S1x64 .f32) (p : Fin 1024) (q : Fin 64) :
    k3_pay1 (F := Ideal) x0 x1 (ix2 p q) = max (x0 (ix2 p q) + x1 (ix2 (0 : Fin 1) q)) 0 := by
  unfold k3_pay1
  rw [maximumf_apply, addf_apply, broadcast_apply, shapeCast_self, shapeCast_self, broadcastTo_1b_ab_apply]
  exact congrArg _ Ideal.ofBits_zero_f32

variable (V : (c : Dev nD) → (b : Ref sig .tc) → Buf (Elt Ideal) ((c : Thread nD τ).loc b)) (c : Dev nD)

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

-- A tile's activation at (r, q) is the whole activation at (1024 t + r, q).
theorem flushed3_eq (t : Fin cfg3.N) :
    (dat3 (F := Ideal) V c).flushed 2 t
      = ((cfg3.win 2).blk t).view.read (Elt Ideal) (Cert.Stages.actRow64 (V c main_v20) (V c main_v21)) := by
  show (cfg3.win 2).cut (grid3.coords t) ((dat3 (F := Ideal) V c).after 2 t) = _
  rw [after3_2]
  unfold out3_2
  rw [View.canon_unit_zero zero2]
  simp only [View.ld_unit_zero (S := S1024x64) zero2, View.ld_unit_zero (S := S1x64) zero2]
  obtain ⟨a0, a1, b0, b1, c0, c1⟩ := idx_facts3 t
  refine funext fun (j : S1024x64.Idx) => ?_
  obtain ⟨p, q, rfl⟩ : ∃ (p : Fin 1024) (q : Fin 64), j = ix2 p q := ⟨j 0, j 1, eq_ix2 j⟩
  show k3_pay1 (F := Ideal) (iblk3 V c 0 t) (iblk3 V c 1 t) (ix2 p q)
    = Cert.Stages.actRow64 (V c main_v20) (V c main_v21) ((win3_2.rect t).emb (ix2 p q))
  have e2 : (win3_2.rect t).emb (ix2 p q) = ix2 ((win3_2.rect t).emb (ix2 p q) 0) q :=
    Shape.idx_ext₂ rfl (by show win3_2.index t 1 * 64 + 1 * q.val = q.val; rw [c1]; omega)
  have e0 : (win3_0.rect t).emb (ix2 p q) = ix2 ((win3_2.rect t).emb (ix2 p q) 0) q :=
    Shape.idx_ext₂ (by show win3_0.index t 0 * 1024 + 1 * p.val = win3_2.index t 0 * 1024 + 1 * p.val; rw [a0, c0])
      (by show win3_0.index t 1 * 64 + 1 * q.val = q.val; rw [a1]; omega)
  have e1 : (win3_1.rect t).emb (ix2 (0 : Fin 1) q) = ix2 (0 : Fin 1) q :=
    Shape.idx_ext₂ (by show win3_1.index t 0 * 1 + 1 * 0 = 0; rw [b0])
      (by show win3_1.index t 1 * 64 + 1 * q.val = q.val; rw [b1]; omega)
  rw [e2]
  exact (pay3_apply _ _ p q).trans ((congrArg₂ (fun a b : EReal => max (a + b) 0) (congrArg (V c main_v20) e0)
    (congrArg (V c main_v21) e1)).trans (TileHid.actRow64_apply _ _ _ q).symm)

-- Row p of the result lies in the block of tile p / 1024.
theorem cover3 (i : S12288x64.Idx) :
    ∃ t : Fin cfg3.N, (cfg3.win 2).flush t = true ∧ i ∈ ((cfg3.win 2).blk t).view.set := by
  have ht : (i 0).val / 1024 < grid3.N := by have := idx2_lt0 i; rw [N_3]; omega
  obtain ⟨-, -, -, -, e0, e1⟩ := idx_facts3 ⟨_, ht⟩
  refine ⟨⟨_, ht⟩, flush3_2 _, ?_⟩
  show i ∈ ((View.whole main_v22).slice (win3_2.rect ⟨_, ht⟩)).set
  rw [View.set_slice_whole]
  exact mem_rowBlock (B := 1024) i (by decide) (by show win3_2.index _ 0 * 1024 = _; rw [e0]) rfl
    (by show win3_2.index _ 1 * 64 = 0; rw [e1]) rfl

theorem region3_value :
    (dat3 (F := Ideal) V c).arrAt 2 cfg3.N = Cert.Stages.actRow64 (V c main_v20) (V c main_v21) :=
  (dat3 (F := Ideal) V c).arrAt_eq_of_cover 2 _ (fun t _ => flushed3_eq V c t) cover3

end Cert.KernelIdeal.Layers

end
-- ==== Proof.Val.Reg4.lean ====
import proofs.«427227_j17824114279158_3_alg».proof.Proof.KI.Reg4
import proofs.«427227_j17824114279158_3_alg».proof.Proof.Stages
import proofs.«427227_j17824114279158_3_alg».proof.Proof.Val.Tile
import Idealize.ShloMosaic.Lib.ValueLayout
import Idealize.ShloMosaic.Lib.StackMember

noncomputable section

namespace Cert.KernelIdeal.Layers

open Cert.KernelIdeal Cert.KernelIdeal.Gen Cert.Tiles
open Idealize.ShloMosaic Idealize.ShloMosaic.TcCoe Idealize.ShloMosaic.ValueIdx Idealize.SL.Sem
open Idealize.ShloMosaic.StackMember (dotGeneral_plain_apply)
open Idealize.ShloMosaic.Pipeline (Dat Cfg Window)
open Cert.Stages (actRow512 mmOut zeros512)

-- The stored value at (p, j): row p of the first block against column j of the second, plus the bias entry j, or 0 if that is larger.
theorem pay4_apply (x0 : Vec Ideal S4096x64 .f32) (x1 : Vec Ideal S64x512 .f32) (x2 : Vec Ideal S1x512 .f32) (p : Fin 4096) (j : Fin 512) :
    k4_pay1 x0 x1 x2 (ix2 p j) = max ((∑ k : Fin 64, x0 (ix2 p k) * x1 (ix2 k j)) + x2 (ix2 (0 : Fin 1) j)) 0 := by
  unfold k4_pay1
  rw [maximumf_apply, addf_apply, broadcast_apply, shapeCast_self, shapeCast_self, broadcastTo_1b_ab_apply, matmul_zero_eq_dotGeneral]
  exact congrArg₂ max (congrArg (· + _) (dotGeneral_plain_apply none _ _ p j)) Ideal.ofBits_zero_f32

-- The whole-array function at an entry is the same expression in the arrays' entries.
theorem ref4_apply (a : FVec Ideal S12288x64 .f32) (w : FVec Ideal S64x512 .f32) (br : FVec Ideal S1x512 .f32) (i : S12288x512.Idx) :
    actRow512 (mmOut a w) br i
      = max ((∑ k : Fin 64, a (ix2 (i 0 : Fin 12288) k) * w (ix2 k (i 1 : Fin 512))) + br (ix2 (0 : Fin 1) (i 1 : Fin 512))) 0 := by
  obtain ⟨r, j, rfl⟩ : ∃ (r : Fin 12288) (j : Fin 512), i = ix2 r j := ⟨i 0, i 1, eq_ix2 i⟩
  unfold actRow512 zeros512 mmOut
  rw [maximumf_apply, addf_apply, broadcastInDim_oneRow_apply]
  exact congrArg₂ max (congrArg (· + _) (dotGeneral_plain_apply none a w r j)) Ideal.ofBits_zero_f32
-- Tile t takes row block t of the aggregate and of the result; the weight and the bias row are one block each.
theorem idx_facts4 : ∀ t : Fin cfg4.N, (∀ a, win4_1.index t a = 0) ∧ (∀ a, win4_2.index t a = 0)
    ∧ win4_0.index t (0 : Fin 2) = win4_3.index t (0 : Fin 2) ∧ win4_0.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b)) (c : Dev nD)

theorem iblk4_1 (t : Fin cfg4.N) : iblk4 V c 1 t = V c main_arg8 :=
  funext fun x => congrArg (V c main_arg8) (funext fun a => Fin.ext (win4_1.rect_emb_val_of_index_zero t a ((idx_facts4 t).1 a) x))

theorem iblk4_2 (t : Fin cfg4.N) : iblk4 V c 2 t = V c main_v27 :=
  funext fun x => congrArg (V c main_v27) (funext fun a => Fin.ext (win4_2.rect_emb_val_of_index_zero t a ((idx_facts4 t).2.1 a) x))

-- Row p of tile t's block of the aggregate is row 4096 (row block of t) + p of the aggregate.
theorem iblk4_0_apply (t : Fin cfg4.N) (p : Fin 4096) (k : Fin 64) (r : Fin 12288)
    (hr : win4_3.index t (0 : Fin 2) * 4096 + p.val = r.val) :
    iblk4 V c 0 t (ix2 p k) = V c main_v26 (ix2 r k) :=
  congrArg (V c main_v26) (Shape.idx_ext₂ ((win4_0.rect_emb_val t _ 0).trans (by rw [(idx_facts4 t).2.2.1]; exact hr))
    (win4_0.rect_emb_val_of_index_zero t 1 (idx_facts4 t).2.2.2.1 _))

-- Tile t's block of the result is that block of the whole-array function of the arrays the region was entered with.
theorem flushed4_eq (t : Fin cfg4.N) :
    (dat4 V c).flushed 3 t
      = ((cfg4.win 3).blk t).view.read (Elt Ideal) (actRow512 (mmOut (V c main_v26) (V c main_arg8)) (V c main_v27)) := by
  show (cfg4.win 3).cut (grid4.coords t) ((dat4 V c).after 3 t) = _
  rw [after4_3, out4_3, View.canon_unit_zero zero2]
  simp only [View.ld_unit_zero (S := S4096x64) zero2, View.ld_unit_zero (S := S64x512) zero2, View.ld_unit_zero (S := S1x512) zero2]
  funext j
  obtain ⟨p, q, rfl⟩ : ∃ (p : Fin 4096) (q : Fin 512), j = ix2 p q := ⟨j 0, j 1, eq_ix2 j⟩
  show k4_pay1 _ _ _ (ix2 p q) = actRow512 _ _ (((cfg4.win 3).blk t).view.emb (ix2 p q))
  rw [pay4_apply, ref4_apply, iblk4_1, iblk4_2,
    show (((cfg4.win 3).blk t).view.emb (ix2 p q) 1 : Fin 512) = q from
      Fin.ext (win4_3.rect_emb_val_of_index_zero t 1 (idx_facts4 t).2.2.2.2.2 _)]
  exact congrArg (fun s => max (s + _) 0) (Finset.sum_congr rfl fun k _ =>
    congrArg (· * _) (iblk4_0_apply V c t p k _ (win4_3.rect_emb_val t (ix2 p q) 0).symm))

-- Row r of the result lies in the block of tile r / 4096.
theorem cover4 (i : S12288x512.Idx) :
    ∃ t : Fin cfg4.N, (cfg4.win 3).flush t = true ∧ i ∈ ((cfg4.win 3).blk t).view.set := by
  have ht : (i 0).val / 4096 < grid4.N := by have := idx2_lt0 i; rw [N_4]; omega
  obtain ⟨-, -, -, -, e0, e1⟩ := idx_facts4 ⟨_, ht⟩
  refine ⟨⟨_, ht⟩, flush4_3 _, ?_⟩
  show i ∈ ((View.whole main_v28).slice (win4_3.rect ⟨_, ht⟩)).set
  rw [View.set_slice_whole]
  exact mem_rowBlock (B := 4096) i (by decide) (by show win4_3.index _ 0 * 4096 = _; rw [e0]) rfl
    (by show win4_3.index _ 1 * 512 = 0; rw [e1]) rfl

theorem region4_value :
    (dat4 (F := Ideal) V c).arrAt 3 cfg4.N = Cert.Stages.actRow512 (Cert.Stages.mmOut (V c main_v26) (V c main_arg8)) (V c main_v27) :=
  (dat4 V c).arrAt_eq_of_cover 3 _ (fun t _ => flushed4_eq V c t) cover4

end Cert.KernelIdeal.Layers

end
-- ==== Proof.Val.Reg5.lean ====
import proofs.«427227_j17824114279158_3_alg».proof.Proof.KI.Reg5
import proofs.«427227_j17824114279158_3_alg».proof.Proof.Val.TileHid

noncomputable section

namespace Cert.KernelIdeal.Layers

open Cert.KernelIdeal Cert.KernelIdeal.Gen
open Idealize.ShloMosaic Idealize.ShloMosaic.TcCoe Idealize.SL.Sem TileHid

variable (V : (c : Dev nD) → (b : Ref sig .tc) → Buf (Elt Ideal) ((c : Thread nD τ).loc b)) (c : Dev nD)

theorem idx_facts5 : ∀ t : Fin cfg5.N, win5_0.index t = ![t.val, 0] ∧ win5_1.index t = (fun _ => 0)
    ∧ win5_2.index t = (fun _ => 0) ∧ win5_3.index t = ![t.val, 0] :=
  (by decide +kernel : ∀ t : Fin grid5.N, _)

-- Tile t's output block is block t of the whole-array function, and the twelve blocks cover the array.
theorem region5_value :
    (dat5 (F := Ideal) V c).arrAt 3 cfg5.N = Cert.Stages.mmHid (Cert.Stages.actRow64 (V c main_v14) (V c main_v29)) (V c main_arg10) := by
  refine (dat5 (F := Ideal) V c).arrAt_eq_of_cover 3 _ (fun t _ => ?_) fun i => ?_
  · show (cfg5.win 3).cut (grid5.coords t) ((dat5 V c).after 3 t) = _
    rw [after5_3]
    exact funext fun j => (congrFun (canon_pay _ _ _) j).trans
      (hid_tile (V c main_v14) (V c main_v29) (V c main_arg10) ((cfg5.win 0).blk t).view.emb ((cfg5.win 1).blk t).view.emb ((cfg5.win 2).blk t).view.emb
        ((cfg5.win 3).blk t).view.emb (idx_facts5 t) (fun _ _ => rfl) (fun _ _ => rfl) (fun _ _ => rfl) (fun _ _ => rfl) j)
  · obtain ⟨t, ht⟩ := row_cover N_5 (fun t => (idx_facts5 t).2.2.2) i
    exact ⟨t, flush5_3 t, (congrArg (i ∈ ·) (View.set_slice_whole main_v30 (win5_3.rect t))).mpr (Rect.mem_set_unit.mpr ht)⟩

end Cert.KernelIdeal.Layers

end
-- ==== Proof.Val.Reg6.lean ====
import proofs.«427227_j17824114279158_3_alg».proof.Proof.KI.Reg6
import proofs.«427227_j17824114279158_3_alg».proof.Proof.Stages
import proofs.«427227_j17824114279158_3_alg».proof.Proof.Val.TileHid
import Idealize.ShloMosaic.Lib.ValueLayout
import Idealize.ShloMosaic.Lib.StackMember

noncomputable section

namespace Cert.KernelIdeal.Layers

open Cert.KernelIdeal Cert.KernelIdeal.Gen
open Idealize.ShloMosaic Idealize.ShloMosaic.TcCoe Idealize.ShloMosaic.ValueIdx Idealize.SL.Sem
open Idealize.ShloMosaic.StackMember (dotGeneral_plain_apply)
open Idealize.ShloMosaic.Pipeline (Dat Cfg Window)
open Cert.Stages (gram actRow64)

-- An M×K by N×K contraction of the second axes, at (p, r), runs over the pairs (p, k), (r, k), k below K.
theorem sum_transposedRhs {M K N : ℕ} (L : (⟨2, ![M, K]⟩ : Shape).Idx → EReal) (R : (⟨2, ![N, K]⟩ : Shape).Idx → EReal) (p : Fin M) (r : Fin N) :
    ∑ q, L ((DotDims.transposedRhs M K N).lhsIdx (ix2 p r) q) * R ((DotDims.transposedRhs M K N).rhsIdx (ix2 p r) q)
      = ∑ k : Fin K, L (ix2 p k) * R (ix2 r k) := by
  rw [← Equiv.sum_comp (contrEquiv1 (DotDims.transposedRhs M K N) K rfl rfl) fun k => L (ix2 p k) * R (ix2 r k)]
  exact Finset.sum_congr rfl fun q _ => congrArg₂ (L · * R ·)
    (funext fun a => Fin.ext (match a with | ⟨0, _⟩ => rfl | ⟨1, _⟩ => rfl))
    (funext fun a => Fin.ext (match a with | ⟨0, _⟩ => rfl | ⟨1, _⟩ => rfl))

-- The stored value at (p, r): the inner product of row p of the one block and row r of the other, each row with the bias row added and its negative entries replaced by 0.
theorem pay6_apply (b : Vec Ideal S1x64 .f32) (x0 : Vec Ideal S2048x64 .f32) (x1 : Vec Ideal S1024x64 .f32) (p : Fin 2048) (r : Fin 1024) :
    k6_pay1 b x0 x1 (ix2 p r)
      = ∑ k : Fin 64, max (x0 (ix2 p k) + b (ix2 (0 : Fin 1) k)) 0 * max (x1 (ix2 r k) + b (ix2 (0 : Fin 1) k)) 0 := by
  unfold k6_pay1
  simp only [matmul]
  rw [Ideal.matmul_constant_zero_apply]
  refine (sum_transposedRhs _ _ p r).trans (Finset.sum_congr rfl fun k _ => ?_)
  rw [truncf_apply, truncf_apply, maximumf_apply, maximumf_apply, addf_apply, addf_apply, broadcast_apply, broadcast_apply,
    shapeCast_self, shapeCast_self, shapeCast_self, broadcastTo_1b_ab_apply, broadcastTo_1b_ab_apply]
  exact congrArg (fun z => max _ z * max _ z) Ideal.ofBits_zero_f32

-- The gram matrix of the rectified aggregate at an entry is the same expression in the aggregate's two rows the entry names.
theorem ref6_apply (A : FVec Ideal S12288x64 .f32) (B : FVec Ideal S1x64 .f32) (i : S12288x12288.Idx) :
    gram (actRow64 A B) i
      = ∑ k : Fin 64, max (A (ix2 (i 0 : Fin 12288) k) + B (ix2 (0 : Fin 1) k)) 0 * max (A (ix2 (i 1 : Fin 12288) k) + B (ix2 (0 : Fin 1) k)) 0 := by
  obtain ⟨P, R, rfl⟩ : ∃ P R : Fin 12288, i = ix2 P R := ⟨i 0, i 1, eq_ix2 i⟩
  unfold gram
  refine (dotGeneral_plain_apply none _ _ P R).trans (Finset.sum_congr rfl fun k _ => ?_)
  rw [transpose_ix2_apply, TileHid.actRow64_apply, TileHid.actRow64_apply]
-- Over the 72 tiles: the two aggregate windows follow the result's row block and column block, the bias row is one block.
theorem idx_facts6 : ∀ t : Fin cfg6.N, (∀ a, win6_2.index t a = 0)
    ∧ win6_0.index t (0 : Fin 2) = win6_3.index t (0 : Fin 2) ∧ win6_0.index t (1 : Fin 2) = 0
    ∧ win6_1.index t (0 : Fin 2) = win6_3.index t (1 : Fin 2) ∧ win6_1.index t (1 : Fin 2) = 0 :=
  (by decide +kernel : ∀ t : Fin grid6.N, _)

-- Every block of the result is some tile's.
theorem idx_onto6 : ∀ (q0 : Fin 6) (q1 : Fin 12), ∃ t : Fin cfg6.N, win6_3.index t = ![q0.val, q1.val] :=
  (by decide +kernel : ∀ (q0 : Fin 6) (q1 : Fin 12), ∃ t : Fin grid6.N, win6_3.index t = ![q0.val, q1.val])

variable (V : (c : Dev nD) → (b : Ref sig .tc) → Buf (Elt Ideal) ((c : Thread nD τ).loc b)) (c : Dev nD)

theorem iblk6_2 (t : Fin cfg6.N) : iblk6 V c 2 t = V c main_v35 :=
  funext fun x => congrArg (V c main_v35) (funext fun a => Fin.ext (win6_2.rect_emb_val_of_index_zero t a ((idx_facts6 t).1 a) x))

-- Row p of the first window's block is row 2048 (row block of t) + p of the aggregate.
theorem iblk6_0_apply (t : Fin cfg6.N) (p : Fin 2048) (k : Fin 64) (P : Fin 12288)
    (hP : win6_3.index t (0 : Fin 2) * 2048 + p.val = P.val) :
    iblk6 V c 0 t (ix2 p k) = V c main_v34 (ix2 P k) :=
  congrArg (V c main_v34) (Shape.idx_ext₂ ((win6_0.rect_emb_val t _ 0).trans (by rw [(idx_facts6 t).2.1]; exact hP))
    (win6_0.rect_emb_val_of_index_zero t 1 (idx_facts6 t).2.2.1 _))

-- Row r of the second window's block is row 1024 (column block of t) + r of the same aggregate.
theorem iblk6_1_apply (t : Fin cfg6.N) (r : Fin 1024) (k : Fin 64) (R : Fin 12288)
    (hR : win6_3.index t (1 : Fin 2) * 1024 + r.val = R.val) :
    iblk6 V c 1 t (ix2 r k) = V c main_v34 (ix2 R k) :=
  congrArg (V c main_v34) (Shape.idx_ext₂ ((win6_1.rect_emb_val t _ 0).trans (by rw [(idx_facts6 t).2.2.2.1]; exact hR))
    (win6_1.rect_emb_val_of_index_zero t 1 (idx_facts6 t).2.2.2.2 _))

-- Tile t's block of the result is that block of the gram matrix of the rectified aggregate.
theorem flushed6_eq (t : Fin cfg6.N) :
    (dat6 V c).flushed 3 t = ((cfg6.win 3).blk t).view.read (Elt Ideal) (gram (actRow64 (V c main_v34) (V c main_v35))) := by
  show (cfg6.win 3).cut (grid6.coords t) ((dat6 V c).after 3 t) = _
  have hz : (![0, 0] : Fin 2 → ℕ) = fun _ => 0 := by decide
  rw [after6_3, out6_3, View.canon_unit_zero hz]
  simp only [View.ld_unit_zero (S := S2048x64) hz, View.ld_unit_zero (S := S1024x64) hz, View.ld_unit_zero (S := S1x64) hz]
  funext j
  obtain ⟨p, r, rfl⟩ : ∃ (p : Fin 2048) (r : Fin 1024), j = ix2 p r := ⟨j 0, j 1, eq_ix2 j⟩
  show k6_pay1 _ _ _ (ix2 p r) = gram _ (((cfg6.win 3).blk t).view.emb (ix2 p r))
  rw [pay6_apply, ref6_apply, iblk6_2]
  exact Finset.sum_congr rfl fun k _ => congrArg₂ (fun u v => max (u + _) 0 * max (v + _) 0)
    (iblk6_0_apply V c t p k _ (win6_3.rect_emb_val t (ix2 p r) 0).symm) (iblk6_1_apply V c t r k _ (win6_3.rect_emb_val t (ix2 p r) 1).symm)

-- An entry of the result lies in the block of the tile whose row block is its row / 2048 and column block its column / 1024.
theorem cover6 (i : S12288x12288.Idx) :
    ∃ t : Fin cfg6.N, (cfg6.win 3).flush t = true ∧ i ∈ ((cfg6.win 3).blk t).view.set := by
  have hi0 := idx2_lt0 i
  have hi1 := idx2_lt1 i
  obtain ⟨t, ht⟩ := idx_onto6 ⟨(i 0).val / 2048, by omega⟩ ⟨(i 1).val / 1024, by omega⟩
  have q0 : win6_3.index t (0 : Fin 2) = (i 0).val / 2048 := congrFun ht 0
  have q1 : win6_3.index t (1 : Fin 2) = (i 1).val / 1024 := congrFun ht 1
  refine ⟨t, flush6_3 t, ?_⟩
  show i ∈ ((View.whole main_v36).slice (win6_3.rect t)).set
  rw [View.set_slice_whole, Rect.mem_set_unit]
  intro a
  match a with
  | ⟨0, _⟩ => show win6_3.index t (0 : Fin 2) * 2048 ≤ (i 0).val ∧ (i 0).val < win6_3.index t (0 : Fin 2) * 2048 + 2048; omega
  | ⟨1, _⟩ => show win6_3.index t (1 : Fin 2) * 1024 ≤ (i 1).val ∧ (i 1).val < win6_3.index t (1 : Fin 2) * 1024 + 1024; omega

theorem region6_value :
    (dat6 (F := Ideal) V c).arrAt 3 cfg6.N = Cert.Stages.gram (Cert.Stages.actRow64 (V c main_v34) (V c main_v35)) :=
  (dat6 V c).arrAt_eq_of_cover 3 _ (fun t _ => flushed6_eq V c t) cover6

end Cert.KernelIdeal.Layers

end
-- ==== Proof.Linear.lean ====
import proofs.«427227_j17824114279158_3_alg».proof.Proof.Stages
import proofs.«427227_j17824114279158_3_alg».proof.Proof.LibRowGatherScatter
import Idealize.ShloMosaic.Lib.ValueIdx
import Idealize.ShloMosaic.Lib.ValueLayout
import Idealize.ShloMosaic.Lib.Pipeline.Value
import Idealize.ShloMosaic.PureOps.Ideal.Laws
import Mathlib.Data.EReal.Operations

noncomputable section

namespace Cert.Stages

open Cert.ReferenceIdeal Cert.ReferenceIdeal.Gen Cert.ReferenceIdeal.Hand Idealize.ShloMosaic Idealize.ShloMosaic.ValueIdx
open scoped BigOperators

namespace Lin

-- Over the extended reals a product distributes over a finite sum of non-negative terms: no ∞ − ∞ can arise.
theorem sum_mul_of_nonneg {ι : Type} (S : Finset ι) (a : ι → EReal) (c : EReal) (ha : ∀ e ∈ S, 0 ≤ a e) :
    (∑ e ∈ S, a e) * c = ∑ e ∈ S, a e * c := by
  classical
  induction S using Finset.induction_on with
  | empty => simp
  | insert e S he ih =>
    have hS : ∀ i ∈ S, 0 ≤ a i := fun i hi => ha i (Finset.mem_insert_of_mem hi)
    rw [Finset.sum_insert he, Finset.sum_insert he,
      EReal.right_distrib_of_nonneg (ha e (Finset.mem_insert_self e S)) (Finset.sum_nonneg hS), ih hS]

theorem mmOut_apply (x : FVec Ideal S12288x64 .f32) (w : FVec Ideal S64x512 .f32) (d : Fin 12288) (j : Fin 512) :
    mmOut x w (ix2 d j) = ∑ k : Fin 64, x (ix2 d k) * w (ix2 k j) :=
  StackMember.dotGeneral_plain_apply none x w d j

def srcRow (ei : IVec S2x393216 32) (e : Fin 393216) : Fin 12288 :=
  ⟨min ((col (wrapW (srcW ei))) (ix2 e 0)).toInt.toNat (12288 - 1), by omega⟩

def edgesInto (ei : IVec S2x393216 32) (d : Fin 12288) : Finset (Fin 393216) :=
  Finset.univ.filter (fun e : Fin 393216 => ((col (dstW ei)) (ix2 e 0)).toInt = (d.val : ℤ))

-- Entry (d, q) of the aggregation is the sum over the edges into d of the source node's entry q, whatever the row width.
theorem agg_apply {D : Nat} (ws : ScatterDims.WF ⟨2, ![12288, D]⟩ ⟨2, ![393216, 1]⟩ ⟨2, ![393216, D]⟩ [1] [0] [0] 1)
    (wg : GatherDims.WF ⟨2, ![12288, D]⟩ ⟨2, ![393216, 1]⟩ ⟨2, ![393216, D]⟩ [1] [0] [] [0] [] 1 ![1, D])
    (hz : (⟨0, ![]⟩ : Shape).BroadcastsInDim ⟨2, ![12288, D]⟩ ![])
    (ei : IVec S2x393216 32) (x : FVec Ideal ⟨2, ![12288, D]⟩ .f32) (d : Fin 12288) (q : Fin D) :
    Host.scatterAdd (F := Ideal) (rowScatter 12288 393216 D ws)
        (broadcastInDim _ ![] hz (constant (F := Ideal) ⟨0, ![]⟩ .f32 0x00000000#32)) (col (dstW ei))
        (Host.gather (rowGather 12288 393216 D wg) x (col (wrapW (srcW ei)))) (ix2 d q)
      = ∑ e ∈ edgesInto ei d, x (ix2 (srcRow ei e) q) := by
  rw [rowScatterAdd_apply, bcastScalar_apply, constant_apply, Ideal.ofBits_zero_f32, zero_add]
  exact Finset.sum_congr rfl fun e _ => rowGather_apply (by norm_num) wg x _ e q

end Lin

open Lin

theorem actRow64_nonneg (x : FVec Ideal S12288x64 .f32) (br : FVec Ideal S1x64 .f32) (i : S12288x64.Idx) :
    (0 : EReal) ≤ actRow64 x br i := by
  unfold actRow64 zeros64
  rw [reluOps_apply]
  exact le_max_right _ _

-- Both sides are the double sum over the edges into d and the contracted coordinate; a product distributes over a non-negative sum.
theorem mmOut_agg64 (ei : IVec S2x393216 32) (x : FVec Ideal S12288x64 .f32) (w : FVec Ideal S64x512 .f32)
    (hx : ∀ i, (0 : EReal) ≤ x i) :
    mmOut (agg64 ei x) w = agg512 ei (mmOut x w) := by
  funext i
  obtain ⟨d, j, rfl⟩ : ∃ (d : Fin 12288) (j : Fin 512), i = ix2 d j := ⟨i 0, i 1, eq_ix2 i⟩
  rw [mmOut_apply]
  refine Eq.trans ?_ (agg_apply Facts₀.scatter_S12288x512_S393216x1_S393216x512_1_0_0_1_wf
    Facts₀.gather_S12288x512_S393216x1_S393216x512_1_0_n_n_0_1_1512_wf _ ei _ d j).symm
  simp only [mmOut_apply, show ∀ k, agg64 ei x (ix2 d k) = _ from
    agg_apply Facts₀.scatter_S12288x64_S393216x1_S393216x64_1_0_0_1_wf
      Facts₀.gather_S12288x64_S393216x1_S393216x64_1_0_n_n_0_1_164_wf _ ei x d]
  rw [Finset.sum_comm]
  exact Finset.sum_congr rfl fun k _ => sum_mul_of_nonneg _ _ _ fun e _ => hx _

end Cert.Stages

end
-- ==== Proof.Bridge.lean ====
import proofs.«427227_j17824114279158_3_alg».proof.Proof.KI.Outs
import proofs.«427227_j17824114279158_3_alg».proof.Proof.Val.Host
import proofs.«427227_j17824114279158_3_alg».proof.Proof.Val.Reg0
import proofs.«427227_j17824114279158_3_alg».proof.Proof.Val.Reg1
import proofs.«427227_j17824114279158_3_alg».proof.Proof.Val.Reg2
import proofs.«427227_j17824114279158_3_alg».proof.Proof.Val.Reg3
import proofs.«427227_j17824114279158_3_alg».proof.Proof.Val.Reg4
import proofs.«427227_j17824114279158_3_alg».proof.Proof.Val.Reg5
import proofs.«427227_j17824114279158_3_alg».proof.Proof.Val.Reg6
import proofs.«427227_j17824114279158_3_alg».proof.Proof.Linear

noncomputable section

namespace Cert.KernelIdeal.Layers

open Cert.KernelIdeal Cert.KernelIdeal.Gen Cert.Stages
open Idealize.ShloMosaic Idealize.ShloMosaic.TcCoe Idealize.SL.Sem

variable (m : (ℓ : Loc nD τ sig) → Buf (Elt Ideal) ℓ) (c : Dev nD)

abbrev ar (r : Ref sig .tc) : Buf (Elt Ideal) ((c : Thread nD τ).loc r) := m ((c : Thread nD τ).loc r)

abbrev encK : FVec Ideal Cert.ReferenceIdeal.S12288x64 .f32 :=
  enc (ar m c main_arg0) (edges m c) (ar m c main_arg2) (ar m c main_arg3) (ar m c main_arg4)
abbrev xaK : FVec Ideal Cert.ReferenceIdeal.S12288x64 .f32 :=
  act64 (agg64 (edges m c) (mmHid (act64 (encK m c) (ar m c main_arg5)) (ar m c main_arg6))) (ar m c main_arg7)

variable (hs : SrcInRange m c)

include hs in
-- Item by item: a region's output is its whole-array value at the contents it was entered with, an aggregation is agg64 of the array before it, and an array no item writes is still what it was.
theorem at_v14 : V7 m (outs m) c main_v14 = encK m c := by
  rw [agg_after_2 m (outs m) c hs, show V5 m (outs m) c main_v10 = _ from Function.update_self .., outs_H1 m c,
    region1_value (En1 m (outs m)) c]
  dsimp only [En1]
  rw [agg_after_1 m (outs m) c hs, show V2 m (outs m) c main_v4 = _ from Function.update_self .., outs_H0 m c,
    region0_value (En0 m) c]
  dsimp only [En0]
  rw [bias_after_1]
  simp (disch := decide) only [V4_of m (outs m) c, V3_of m (outs m) c, V2_of m (outs m) c, V1_of m c]
  rfl

include hs in
-- The kernel aggregates the hidden activation before the last transform, the reference after it: a rectified activation is non-negative, so the two agree.
theorem attributes_result : V19 m (outs m) c main_v28
    = act512 (agg512 (edges m c) (mmOut (xaK m c) (ar m c main_arg8))) (ar m c main_arg9) := by
  simp (disch := decide) only [V19_of m (outs m) c, V18_of m (outs m) c, V17_of m (outs m) c, V16_of m (outs m) c, V15_of m (outs m) c]
  rw [show V14 m (outs m) c main_v28 = _ from Function.update_self .., outs_H4 m c, region4_value (En4 m (outs m)) c]
  dsimp only [En4]
  rw [agg_after_4 m (outs m) c hs, show V11 m (outs m) c main_v22 = _ from Function.update_self .., outs_H3 m c,
    region3_value (En3 m (outs m)) c]
  dsimp only [En3]
  rw [agg_after_3 m (outs m) c hs, show V8 m (outs m) c main_v16 = _ from Function.update_self .., outs_H2 m c,
    region2_value (En2 m (outs m)) c]
  dsimp only [En2]
  rw [at_v14 m c hs, bias_after_2, bias_after_3, bias_after_4]
  simp (disch := decide) only [V13_of m (outs m) c, V12_of m (outs m) c, V11_of m (outs m) c, V10_of m (outs m) c, V9_of m (outs m) c, V8_of m (outs m) c, V7_of m (outs m) c, V6_of m (outs m) c, V5_of m (outs m) c, V4_of m (outs m) c, V3_of m (outs m) c, V2_of m (outs m) c, V1_of m c]
  show actRow512 (mmOut (agg64 (edges m c) (xaK m c)) (ar m c main_arg8)) _ = _
  rw [mmOut_agg64 (edges m c) (xaK m c) (ar m c main_arg8) (fun i => actRow64_nonneg _ _ i)]
  rfl

include hs in
theorem structure_result : V19 m (outs m) c main_v36
    = gram (act64 (agg64 (edges m c) (mmHid (act64 (encK m c) (ar m c main_arg5)) (ar m c main_arg10))) (ar m c main_arg11)) := by
  rw [show V19 m (outs m) c main_v36 = _ from Function.update_self .., outs_H6 m c, region6_value (En6 m (outs m)) c]
  dsimp only [En6]
  rw [agg_after_6 m (outs m) c hs, show V16 m (outs m) c main_v30 = _ from Function.update_self .., outs_H5 m c,
    region5_value (En5 m (outs m)) c]
  dsimp only [En5]
  rw [bias_after_5, bias_after_6]
  simp (disch := decide) only [V15_of m (outs m) c, V14_of m (outs m) c, V13_of m (outs m) c, V12_of m (outs m) c, V11_of m (outs m) c, V10_of m (outs m) c, V9_of m (outs m) c, V8_of m (outs m) c, V7_of m (outs m) c, V6_of m (outs m) c, V5_of m (outs m) c, V4_of m (outs m) c, V3_of m (outs m) c, V2_of m (outs m) c, V1_of m c]
  rw [at_v14 m c hs]
  rfl

end Cert.KernelIdeal.Layers

end
-- ==== Proof.Val.Pre.lean ====
import proofs.«427227_j17824114279158_3_alg».proof.Proof.Val.Host
import proofs.«427227_j17824114279158_3_alg».proof.Defs
import proofs.«427227_j17824114279158_3_alg».proof.Proof.Gen.Pre_finite_inputs
import Idealize.ShloMosaic.Lib.ReduceAll
import Idealize.ShloMosaic.Lib.StableHlo.Predicate

noncomputable section

namespace Cert.KernelIdeal.Layers

open Cert.KernelIdeal Cert.KernelIdeal.Gen
open Idealize.ShloMosaic Idealize.ShloMosaic.TcCoe Idealize.ShloMosaic.ValueIdx Idealize.SL.Sem

-- The predicate's last conjunct is the "and", over all edges, of 0 ≤ source word and source word < 12288.
theorem pre_lastConjunct_src {F : FTy → Type} [FloatOps F] (a1 : IVec Cert.Pre_finite_inputs.S2x393216 32)
    (v48 : IVec Cert.Pre_finite_inputs.S_ 1) (v49 v50 : FVec F Cert.Pre_finite_inputs.S64 .f32)
    (h : Cert.Pre_finite_inputs.fn_part3 (F := F) a1 v48 v49 v50 ix0 = 1#1) (e : Fin 393216) :
    0 ≤ (Cert.Stages.srcW a1 (ix1 e)).toInt ∧ (Cert.Stages.srcW a1 (ix1 e)).toInt < 12288 := by
  haveI : Subsingleton Cert.Pre_finite_inputs.S_.Idx := ⟨fun a b => funext fun d => d.elim0⟩
  unfold Cert.Pre_finite_inputs.fn_part3 at h
  dsimp only at h
  obtain ⟨hge, hlt⟩ := IntOp.andi_eq_one.1 (Host.reduce_andi_all _ _ _ _ _ (IntOp.andi_eq_one.1 h).2 (ix1 e))
  have hge' := IntOp.cmpi_sge.1 hge
  have hlt' := IntOp.cmpi_slt.1 hlt
  rw [Cert.ReferenceIdeal.Hand.bcastScalar_apply, constantI_apply] at hge' hlt'
  exact ⟨hge', hlt'⟩

theorem srcInRange_of_pre (m : (ℓ : Loc nD τ sig) → Buf (Elt Ideal) ℓ) (h : Cert.Pre_KernelIdeal (hPre_finite_inputs := Cert.Pre_finite_inputs.Gen.facts) m) (c : Dev nD) :
    SrcInRange m c :=
  fun e => pre_lastConjunct_src _ _ _ _ (congrFun (h c) ix0) e

end Cert.KernelIdeal.Layers

end
-- ==== Proof.lean ====
/-
  A graph autoencoder on 12288 nodes and 393216 edges against its plain reference. Over the extended reals the two
  programs compute the same arrays layer by layer; in one layer the kernel aggregates the rectified 64-wide activation
  before the 64 → 512 transform and the reference after it, and a product distributes over a sum of non-negative terms.
-/
import proofs.«427227_j17824114279158_3_alg».proof.Defs
import proofs.«427227_j17824114279158_3_alg».proof.Proof.Gen.Kernel
import proofs.«427227_j17824114279158_3_alg».proof.Proof.Gen.KernelIdeal
import proofs.«427227_j17824114279158_3_alg».proof.Proof.Gen.ReferenceIdeal
import proofs.«427227_j17824114279158_3_alg».proof.Proof.Gen.ReferenceIdeal.Run
import proofs.«427227_j17824114279158_3_alg».proof.Proof.Gen.ReferenceIdeal.Read
import proofs.«427227_j17824114279158_3_alg».proof.Proof.Gen.Pre_finite_inputs
import proofs.«427227_j17824114279158_3_alg».proof.Proof.K.Frame
import proofs.«427227_j17824114279158_3_alg».proof.Proof.KI.Run
import proofs.«427227_j17824114279158_3_alg».proof.Proof.Bridge
import proofs.«427227_j17824114279158_3_alg».proof.Proof.Val.Pre
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Layers.frame (F := Bits) m ρ

theorem frame_ki : @Cert.frame_KernelIdeal Cert.KernelIdeal.Gen.facts Cert.Pre_finite_inputs.Gen.facts :=
  fun m ρ _ => (θ_run Cert.KernelIdeal.defs _ _).mono (fun _ h c => (h c).2.2) (Cert.KernelIdeal.Layers.run_values (F := Ideal) m ρ)

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V19 m (Cert.KernelIdeal.Layers.outs m) c Cert.KernelIdeal.main_v36,
    fun c => Cert.KernelIdeal.Gen.V19 m (Cert.KernelIdeal.Layers.outs m) c Cert.KernelIdeal.main_v28,
    Cert.KernelIdeal.Layers.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine ((Cert.Stages.res_out0_eq m' c).trans ?_).trans
      (Cert.KernelIdeal.Layers.structure_result m c (Cert.KernelIdeal.Layers.srcInRange_of_pre m hpre c)).symm
    obtain ⟨e0, e1, e2, e3, e4, e5, -, -, -, -, e10, e11⟩ := hagree c
    unfold Cert.Stages.arg; rw [e0, e1, e2, e3, e4, e5, e10, e11]
  · refine ((Cert.Stages.res_out1_eq m' c).trans ?_).trans
      (Cert.KernelIdeal.Layers.attributes_result m c (Cert.KernelIdeal.Layers.srcInRange_of_pre m hpre c)).symm
    obtain ⟨e0, e1, e2, e3, e4, e5, e6, e7, e8, e9, -, -⟩ := hagree c
    unfold Cert.Stages.arg; rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
